-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v64)) (v3 : (c : Dev Cert.KernelIdeal.nD) → Buf (Elt Ideal) ((c.tc : Thread Cert.KernelIdeal.nD Cert.KernelIdeal.τ).loc Cert.KernelIdeal.main_v65)) (v4 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_v65) = v3 c
          ∧ r.2.mem ((c.tc : Thread Cert.KernelIdeal.nD Cert.KernelIdeal.τ).loc Cert.KernelIdeal.main_v66) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v160) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x1000000 : Shape := ⟨2, ![2, 1000000]⟩
abbrev S1000000x2 : Shape := ⟨2, ![1000000, 2]⟩
abbrev S1x100000x20 : Shape := ⟨3, ![1, 100000, 20]⟩
abbrev S1x1000000x8 : Shape := ⟨3, ![1, 1000000, 8]⟩
abbrev S80x5 : Shape := ⟨2, ![80, 5]⟩
abbrev S80x20 : Shape := ⟨2, ![80, 20]⟩
abbrev S80 : Shape := ⟨1, ![80]⟩
abbrev S32x2 : Shape := ⟨2, ![32, 2]⟩
abbrev S32x8 : Shape := ⟨2, ![32, 8]⟩
abbrev S32 : Shape := ⟨1, ![32]⟩
abbrev S64x58 : Shape := ⟨2, ![64, 58]⟩
abbrev S64 : Shape := ⟨1, ![64]⟩
abbrev S32x64 : Shape := ⟨2, ![32, 64]⟩
abbrev S64x60 : Shape := ⟨2, ![64, 60]⟩
abbrev S64x64 : Shape := ⟨2, ![64, 64]⟩
abbrev S4x64 : Shape := ⟨2, ![4, 64]⟩
abbrev S4 : Shape := ⟨1, ![4]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S1000000x2 : S_.BroadcastsInDim S1000000x2 (![] : Fin 0 → Fin S1000000x2.rank)
  reducesTo_S1000000x2_S_d0_1 : S1000000x2.ReducesTo [0, 1] S_
  bcast_S_S1x100000x20 : S_.BroadcastsInDim S1x100000x20 (![] : Fin 0 → Fin S1x100000x20.rank)
  reducesTo_S1x100000x20_S_d0_1_2 : S1x100000x20.ReducesTo [0, 1, 2] S_
  bcast_S_S1x1000000x8 : S_.BroadcastsInDim S1x1000000x8 (![] : Fin 0 → Fin S1x1000000x8.rank)
  reducesTo_S1x1000000x8_S_d0_1_2 : S1x1000000x8.ReducesTo [0, 1, 2] S_
  bcast_S_S80x5 : S_.BroadcastsInDim S80x5 (![] : Fin 0 → Fin S80x5.rank)
  reducesTo_S80x5_S_d0_1 : S80x5.ReducesTo [0, 1] S_
  bcast_S_S80x20 : S_.BroadcastsInDim S80x20 (![] : Fin 0 → Fin S80x20.rank)
  reducesTo_S80x20_S_d0_1 : S80x20.ReducesTo [0, 1] S_
  bcast_S_S80 : S_.BroadcastsInDim S80 (![] : Fin 0 → Fin S80.rank)
  reducesTo_S80_S_d0 : S80.ReducesTo [0] S_
  bcast_S_S32x2 : S_.BroadcastsInDim S32x2 (![] : Fin 0 → Fin S32x2.rank)
  reducesTo_S32x2_S_d0_1 : S32x2.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S64x58 : S_.BroadcastsInDim S64x58 (![] : Fin 0 → Fin S64x58.rank)
  reducesTo_S64x58_S_d0_1 : S64x58.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S64x60 : S_.BroadcastsInDim S64x60 (![] : Fin 0 → Fin S64x60.rank)
  reducesTo_S64x60_S_d0_1 : S64x60.ReducesTo [0, 1] S_
  bcast_S_S64x64 : S_.BroadcastsInDim S64x64 (![] : Fin 0 → Fin S64x64.rank)
  reducesTo_S64x64_S_d0_1 : S64x64.ReducesTo [0, 1] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg22 : FVec F S64 .f32) (main_arg23 : FVec F S4x64 .f32) (main_arg24 : FVec F S4 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S4x64 .f32 := Host.absf main_arg23
  let main_cst_42 : FVec F S_ .f32 := constant S_ .f32 0x7F800000#32
  let main_v110 : FVec F S4x64 .f32 := broadcastInDim S4x64 ![] bcast_S_S4x64 main_cst_42
  let main_v111 : IVec S4x64 1 := cmpf .olt main_v109 main_v110
  let main_c_43 : IVec S_ 1 := constantI S_ 1 1#1
  let main_v112 : IVec S_ 1 := (fun x v => Host.reduce IntOp.andi x v reducesTo_S4x64_S_d0_1 h_S_) main_v111 main_c_43
  let main_v113 : IVec S_ 1 := andi main_v108 main_v112
  let main_v114 : FVec F S4 .f32 := Host.absf main_arg24
  let main_cst_44 : FVec F S_ .f32 := constant S_ .f32 0x7F800000#32
  let main_v115 : FVec F S4 .f32 := broadcastInDim S4 ![] bcast_S_S4 main_cst_44
  let main_v116 : IVec S4 1 := cmpf .olt main_v114 main_v115
  let main_c_45 : IVec S_ 1 := constantI S_ 1 1#1
  let main_v117 : IVec S_ 1 := (fun x v => Host.reduce IntOp.andi x v reducesTo_S4_S_d0 h_S_) main_v116 main_c_45
  let main_v118 : IVec S_ 1 := andi main_v113 main_v117
  main_v118

def fn_part5 {F : FTy → Type} [FloatOps F] (main_arg19 : FVec F S64x60 .f32) (main_arg20 : FVec F S64 .f32) (main_arg21 : FVec F S64x64 .f32) (main_arg22 : FVec F S64 .f32) (main_arg23 : FVec F S4x64 .f32) (main_arg24 : FVec F S4 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S64x60 .f32 := Host.absf main_arg19
  let main_cst_34 : FVec F S_ .f32 := constant S_ .f32 0x7F800000#32
  let main_v90 : FVec F S64x60 .f32 := broadcastInDim S64x60 ![] bcast_S_S64x60 main_cst_34
  let main_v91 : IVec S64x60 1 := cmpf .olt main_v89 main_v90
  let main_c_35 : IVec S_ 1 := constantI S_ 1 1#1
  let main_v92 : IVec S_ 1 := (fun x v => Host.reduce IntOp.andi x v reducesTo_S64x60_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg21
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S64x58 .f32) (main_arg16 : FVec F S64 .f32) (main_arg17 : FVec F S32x64 .f32) (main_arg18 : FVec F S32 .f32) (main_arg19 : FVec F S64x60 .f32) (main_arg20 : FVec F S64 .f32) (main_arg21 : FVec F S64x64 .f32) (main_arg22 : FVec F S64 .f32) (main_arg23 : FVec F S4x64 .f32) (main_arg24 : FVec F S4 .f32) (main_v63 : IVec S_ 1) (main_v67 : IVec S_ 1) : IVec S_ 1 :=
  let main_v68 : IVec S_ 1 := andi main_v63 main_v67
  let main_v69 : FVec F S64x58 .f32 := Host.absf main_arg15
  let main_cst_26 : FVec F S_ .f32 := constant S_ .f32 0x7F800000#32
  let main_v70 : FVec F S64x58 .f32 := broadcastInDim S64x58 ![] bcast_S_S64x58 main_cst_26
  let main_v71 : IVec S64x58 1 := cmpf .olt main_v69 main_v70
  let main_c_27 : IVec S_ 1 := constantI S_ 1 1#1
  let main_v72 : IVec S_ 1 := (fun x v => Host.reduce IntOp.andi x v reducesTo_S64x58_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S32x64 .f32 := Host.absf main_arg17
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S32x8 .f32) (main_arg13 : FVec F S32 .f32) (main_arg14 : FVec F S32 .f32) (main_arg15 : FVec F S64x58 .f32) (main_arg16 : FVec F S64 .f32) (main_arg17 : FVec F S32x64 .f32) (main_arg18 : FVec F S32 .f32) (main_arg19 : FVec F S64x60 .f32) (main_arg20 : FVec F S64 .f32) (main_arg21 : FVec F S64x64 .f32) (main_arg22 : FVec F S64 .f32) (main_arg23 : FVec F S4x64 .f32) (main_arg24 : FVec F S4 .f32) (main_v48 : IVec S_ 1) (main_v49 : FVec F S32x2 .f32) (main_v50 : FVec F S32x2 .f32) : IVec S_ 1 :=
  let main_v51 : IVec S32x2 1 := cmpf .olt main_v49 main_v50
  let main_c_19 : IVec S_ 1 := constantI S_ 1 1#1
  let main_v52 : IVec S_ 1 := (fun x v => Host.reduce IntOp.andi x v reducesTo_S32x2_S_d0_1 h_S_) main_v51 main_c_19
  let main_v53 : IVec S_ 1 := andi main_v48 main_v52
  let main_v54 : FVec F S32x8 .f32 := Host.absf main_arg12
  let main_cst_20 : FVec F S_ .f32 := constant S_ .f32 0x7F800000#32
  let main_v55 : FVec F S32x8 .f32 := broadcastInDim S32x8 ![] bcast_S_S32x8 main_cst_20
  let main_v56 : IVec S32x8 1 := cmpf .olt main_v54 main_v55
  let main_c_21 : IVec S_ 1 := constantI S_ 1 1#1
  let main_v57 : IVec S_ 1 := (fun x v => Host.reduce IntOp.andi x v reducesTo_S32x8_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S80x20 .f32) (main_arg9 : FVec F S80 .f32) (main_arg10 : FVec F S80 .f32) (main_arg11 : FVec F S32x2 .f32) (main_arg12 : FVec F S32x8 .f32) (main_arg13 : FVec F S32 .f32) (main_arg14 : FVec F S32 .f32) (main_arg15 : FVec F S64x58 .f32) (main_arg16 : FVec F S64 .f32) (main_arg17 : FVec F S32x64 .f32) (main_arg18 : FVec F S32 .f32) (main_arg19 : FVec F S64x60 .f32) (main_arg20 : FVec F S64 .f32) (main_arg21 : FVec F S64x64 .f32) (main_arg22 : FVec F S64 .f32) (main_arg23 : FVec F S4x64 .f32) (main_arg24 : FVec F S4 .f32) (main_v33 : IVec S_ 1) : IVec S_ 1 :=
  let main_v34 : FVec F S80x20 .f32 := Host.absf main_arg8
  let main_cst_12 : FVec F S_ .f32 := constant S_ .f32 0x7F800000#32
  let main_v35 : FVec F S80x20 .f32 := broadcastInDim S80x20 ![] bcast_S_S80x20 main_cst_12
  let main_v36 : IVec S80x20 1 := cmpf .olt main_v34 main_v35
  let main_c_13 : IVec S_ 1 := constantI S_ 1 1#1
  let main_v37 : IVec S_ 1 := (fun x v => Host.reduce IntOp.andi x v reducesTo_S80x20_S_d0_1 h_S_) main_v36 main_c_13
  let main_v38 : IVec S_ 1 := andi main_v33 main_v37
  let main_v39 : FVec F S80 .f32 := Host.absf main_arg9
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S80 .f32 := Host.absf main_arg10
  let main_cst_16 : FVec F S_ .f32 := constant S_ .f32 0x7F800000#32
  let main_v45 : FVec F S80 .f32 := broadcastInDim S80 ![] bcast_S_S80 main_cst_16
  let main_v46 : IVec S80 1 := cmpf .olt main_v44 main_v45
  let main_c_17 : IVec S_ 1 := constantI S_ 1 1#1
  let main_v47 : IVec S_ 1 := (fun x v => Host.reduce IntOp.andi x v reducesTo_S80_S_d0 h_S_) main_v46 main_c_17
  let main_v48 : IVec S_ 1 := andi main_v43 main_v47
  let main_v49 : FVec F S32x2 .f32 := Host.absf main_arg11
  let main_cst_18 : FVec F S_ .f32 := constant S_ .f32 0x7F800000#32
  let main_v50 : FVec F S32x2 .f32 := broadcastInDim S32x2 ![] bcast_S_S32x2 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S1x1000000x8 .f32) (main_arg6 : FVec F S1x1000000x8 .f32) (main_arg7 : FVec F S80x5 .f32) (main_arg8 : FVec F S80x20 .f32) (main_arg9 : FVec F S80 .f32) (main_arg10 : FVec F S80 .f32) (main_arg11 : FVec F S32x2 .f32) (main_arg12 : FVec F S32x8 .f32) (main_arg13 : FVec F S32 .f32) (main_arg14 : FVec F S32 .f32) (main_arg15 : FVec F S64x58 .f32) (main_arg16 : FVec F S64 .f32) (main_arg17 : FVec F S32x64 .f32) (main_arg18 : FVec F S32 .f32) (main_arg19 : FVec F S64x60 .f32) (main_arg20 : FVec F S64 .f32) (main_arg21 : FVec F S64x64 .f32) (main_arg22 : FVec F S64 .f32) (main_arg23 : FVec F S4x64 .f32) (main_arg24 : FVec F S4 .f32) (main_v13 : IVec S_ 1) (main_v16 : IVec S1x100000x20 1) : IVec S_ 1 :=
  let main_c_5 : IVec S_ 1 := constantI S_ 1 1#1
  let main_v17 : IVec S_ 1 := (fun x v => Host.reduce IntOp.andi x v reducesTo_S1x100000x20_S_d0_1_2 h_S_) main_v16 main_c_5
  let main_v18 : IVec S_ 1 := andi main_v13 main_v17
  let main_v19 : FVec F S1x1000000x8 .f32 := Host.absf main_arg5
  let main_cst_6 : FVec F S_ .f32 := constant S_ .f32 0x7F800000#32
  let main_v20 : FVec F S1x1000000x8 .f32 := broadcastInDim S1x1000000x8 ![] bcast_S_S1x1000000x8 main_cst_6
  let main_v21 : IVec S1x1000000x8 1 := cmpf .olt main_v19 main_v20
  let main_c_7 : IVec S_ 1 := constantI S_ 1 1#1
  let main_v22 : IVec S_ 1 := (fun x v => Host.reduce IntOp.andi x v reducesTo_S1x1000000x8_S_d0_1_2 h_S_) main_v21 main_c_7
  let main_v23 : IVec S_ 1 := andi main_v18 main_v22
  let main_v24 : FVec F S1x1000000x8 .f32 := Host.absf main_arg6
  let main_cst_8 : FVec F S_ .f32 := constant S_ .f32 0x7F800000#32
  let main_v25 : FVec F S1x1000000x8 .f32 := broadcastInDim S1x1000000x8 ![] bcast_S_S1x1000000x8 main_cst_8
  let main_v26 : IVec S1x1000000x8 1 := cmpf .olt main_v24 main_v25
  let main_c_9 : IVec S_ 1 := constantI S_ 1 1#1
  let main_v27 : IVec S_ 1 := (fun x v => Host.reduce IntOp.andi x v reducesTo_S1x1000000x8_S_d0_1_2 h_S_) main_v26 main_c_9
  let main_v28 : IVec S_ 1 := andi main_v23 main_v27
  let main_v29 : FVec F S80x5 .f32 := Host.absf main_arg7
  let main_cst_10 : FVec F S_ .f32 := constant S_ .f32 0x7F800000#32
  let main_v30 : FVec F S80x5 .f32 := broadcastInDim S80x5 ![] bcast_S_S80x5 main_cst_10
  let main_v31 : IVec S80x5 1 := cmpf .olt main_v29 main_v30
  let main_c_11 : IVec S_ 1 := constantI S_ 1 1#1
  let main_v32 : IVec S_ 1 := (fun x v => Host.reduce IntOp.andi x v reducesTo_S80x5_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x10 .f32) (main_arg1 : IVec S2x1000000 32) (main_arg2 : FVec F S1000000x2 .f32) (main_arg3 : FVec F S1x100000x20 .f32) (main_arg4 : FVec F S1x100000x20 .f32) (main_arg5 : FVec F S1x1000000x8 .f32) (main_arg6 : FVec F S1x1000000x8 .f32) (main_arg7 : FVec F S80x5 .f32) (main_arg8 : FVec F S80x20 .f32) (main_arg9 : FVec F S80 .f32) (main_arg10 : FVec F S80 .f32) (main_arg11 : FVec F S32x2 .f32) (main_arg12 : FVec F S32x8 .f32) (main_arg13 : FVec F S32 .f32) (main_arg14 : FVec F S32 .f32) (main_arg15 : FVec F S64x58 .f32) (main_arg16 : FVec F S64 .f32) (main_arg17 : FVec F S32x64 .f32) (main_arg18 : FVec F S32 .f32) (main_arg19 : FVec F S64x60 .f32) (main_arg20 : FVec F S64 .f32) (main_arg21 : FVec F S64x64 .f32) (main_arg22 : FVec F S64 .f32) (main_arg23 : FVec F S4x64 .f32) (main_arg24 : FVec F S4 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S1000000x2 .f32 := Host.absf main_arg2
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_v9 : FVec F S1x100000x20 .f32 := Host.absf main_arg3
  let main_cst_2 : FVec F S_ .f32 := constant S_ .f32 0x7F800000#32
  let main_v10 : FVec F S1x100000x20 .f32 := broadcastInDim S1x100000x20 ![] bcast_S_S1x100000x20 main_cst_2
  let main_v11 : IVec S1x100000x20 1 := cmpf .olt main_v9 main_v10
  let main_c_3 : IVec S_ 1 := constantI S_ 1 1#1
  let main_v12 : IVec S_ 1 := (fun x v => Host.reduce IntOp.andi x v reducesTo_S1x100000x20_S_d0_1_2 h_S_) main_v11 main_c_3
  let main_v13 : IVec S_ 1 := andi main_v8 main_v12
  let main_v14 : FVec F S1x100000x20 .f32 := Host.absf main_arg4
  let main_cst_4 : FVec F S_ .f32 := constant S_ .f32 0x7F800000#32
  let main_v15 : FVec F S1x100000x20 .f32 := broadcastInDim S1x100000x20 ![] bcast_S_S1x100000x20 main_cst_4
  let main_v16 : IVec S1x100000x20 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x10 : Shape := ⟨2, ![100000, 10]⟩
abbrev S2x1000000 : Shape := ⟨2, ![2, 1000000]⟩
abbrev S1000000x2 : Shape := ⟨2, ![1000000, 2]⟩
abbrev S1x100000x20 : Shape := ⟨3, ![1, 100000, 20]⟩
abbrev S1x1000000x8 : Shape := ⟨3, ![1, 1000000, 8]⟩
abbrev S80x5 : Shape := ⟨2, ![80, 5]⟩
abbrev S80x20 : Shape := ⟨2, ![80, 20]⟩
abbrev S80 : Shape := ⟨1, ![80]⟩
abbrev S32x2 : Shape := ⟨2, ![32, 2]⟩
abbrev S32x8 : Shape := ⟨2, ![32, 8]⟩
abbrev S32 : Shape := ⟨1, ![32]⟩
abbrev S64x58 : Shape := ⟨2, ![64, 58]⟩
abbrev S64 : Shape := ⟨1, ![64]⟩
abbrev S32x64 : Shape := ⟨2, ![32, 64]⟩
abbrev S64x60 : Shape := ⟨2, ![64, 60]⟩
abbrev S64x64 : Shape := ⟨2, ![64, 64]⟩
abbrev S4x64 : Shape := ⟨2, ![4, 64]⟩
abbrev S4 : Shape := ⟨1, ![4]⟩
abbrev S100000x5 : Shape := ⟨2, ![100000, 5]⟩
abbrev S_ : Shape := ⟨0, ![]⟩
abbrev S1x1000000 : Shape := ⟨2, ![1, 1000000]⟩
abbrev S1000000 : Shape := ⟨1, ![1000000]⟩
abbrev S100000x20 : Shape := ⟨2, ![100000, 20]⟩
abbrev S1000000x8 : Shape := ⟨2, ![1000000, 8]⟩
abbrev S5x80 : Shape := ⟨2, ![5, 80]⟩
abbrev S20x80 : Shape := ⟨2, ![20, 80]⟩
abbrev S2x32 : Shape := ⟨2, ![2, 32]⟩
abbrev S8x32 : Shape := ⟨2, ![8, 32]⟩
abbrev S58x64 : Shape := ⟨2, ![58, 64]⟩
abbrev S64x32 : Shape := ⟨2, ![64, 32]⟩
abbrev S60x64 : Shape := ⟨2, ![60, 64]⟩
abbrev S64x4 : Shape := ⟨2, ![64, 4]⟩
abbrev S20000x2 : Shape := ⟨2, ![20000, 2]⟩
abbrev S20000x8 : Shape := ⟨2, ![20000, 8]⟩
abbrev S20000x32 : Shape := ⟨2, ![20000, 32]⟩
abbrev S1x32 : Shape := ⟨2, ![1, 32]⟩
abbrev S100000x8 : Shape := ⟨2, ![100000, 8]⟩
abbrev S1000000x1 : Shape := ⟨2, ![1000000, 1]⟩
abbrev S10000x5 : Shape := ⟨2, ![10000, 5]⟩
abbrev S10000x20 : Shape := ⟨2, ![10000, 20]⟩
abbrev S10000x80 : Shape := ⟨2, ![10000, 80]⟩
abbrev S1x80 : Shape := ⟨2, ![1, 80]⟩
abbrev S100000x28 : Shape := ⟨2, ![100000, 28]⟩
abbrev S1000000x28 : Shape := ⟨2, ![1000000, 28]⟩
abbrev S1000000x58 : Shape := ⟨2, ![1000000, 58]⟩
abbrev S1000000x32 : Shape := ⟨2, ![1000000, 32]⟩
abbrev S20000x58 : Shape := ⟨2, ![20000, 58]⟩
abbrev S20000x64 : Shape := ⟨2, ![20000, 64]⟩
abbrev S1x64 : Shape := ⟨2, ![1, 64]⟩
abbrev S100000x32 : Shape := ⟨2, ![100000, 32]⟩
abbrev S100000x1 : Shape := ⟨2, ![100000, 1]⟩
abbrev S100000 : Shape := ⟨1, ![100000]⟩
abbrev S100000x4 : Shape := ⟨2, ![100000, 4]⟩
abbrev S10000x28 : Shape := ⟨2, ![10000, 28]⟩
abbrev S10000x32 : Shape := ⟨2, ![10000, 32]⟩
abbrev S10000x1 : Shape := ⟨2, ![10000, 1]⟩
abbrev S10000x4 : Shape := ⟨2, ![10000, 4]⟩
abbrev S10000x60 : Shape := ⟨2, ![10000, 60]⟩
abbrev S10000x64 : Shape := ⟨2, ![10000, 64]⟩
abbrev S1x4 : Shape := ⟨2, ![1, 4]⟩

abbrev nBuf : Space → Nat
  | .hbm => 101
  | .vmem => 50
  | .smem => 0
  | _ => 0

abbrev bufTy : (tb : Table) → Fin (tcTables nBuf tb) → BufTy
  | .hbm, ⟨0, _⟩ => ⟨S100000x10, .f32⟩
  | .hbm, ⟨1, _⟩ => ⟨S2x1000000, .i32⟩
  | .hbm, ⟨2, _⟩ => ⟨S1000000x2, .f32⟩
  | .hbm, ⟨3, _⟩ => ⟨S1x100000x20, .f32⟩
  | .hbm, ⟨4, _⟩ => ⟨S1x100000x20, .f32⟩
  | .hbm, ⟨5, _⟩ => ⟨S1x1000000x8, .f32⟩
  | .hbm, ⟨6, _⟩ => ⟨S1x1000000x8, .f32⟩
  | .hbm, ⟨7, _⟩ => ⟨S80x5, .f32⟩
  | .hbm, ⟨8, _⟩ => ⟨S80x20, .f32⟩
  | .hbm, ⟨9, _⟩ => ⟨S80, .f32⟩
  | .hbm, ⟨10, _⟩ => ⟨S80, .f32⟩
  | .hbm, ⟨11, _⟩ => ⟨S32x2, .f32⟩
  | .hbm, ⟨12, _⟩ => ⟨S32x8, .f32⟩
  | .hbm, ⟨13, _⟩ => ⟨S32, .f32⟩
  | .hbm, ⟨14, _⟩ => ⟨S32, .f32⟩
  | .hbm, ⟨15, _⟩ => ⟨S64x58, .f32⟩
  | .hbm, ⟨16, _⟩ => ⟨S64, .f32⟩
  | .hbm, ⟨17, _⟩ => ⟨S32x64, .f32⟩
  | .hbm, ⟨18, _⟩ => ⟨S32, .f32⟩
  | .hbm, ⟨19, _⟩ => ⟨S64x60, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S4x64, .f32⟩
  | .hbm, ⟨24, _⟩ => ⟨S4, .f32⟩
  | .hbm, ⟨25, _⟩ => ⟨S100000x5, .f32⟩
  | .hbm, ⟨26, _⟩ => ⟨S_, .f32⟩
  | .hbm, ⟨27, _⟩ => ⟨S100000x5, .f32⟩
  | .hbm, ⟨28, _⟩ => ⟨S100000x5, .i1⟩
  | .hbm, ⟨29, _⟩ => ⟨S100000x5, .f32⟩
  | .hbm, ⟨30, _⟩ => ⟨S1x1000000, .i32⟩
  | .hbm, ⟨31, _⟩ => ⟨S1000000, .i32⟩
  | .hbm, ⟨32, _⟩ => ⟨S1x1000000, .i32⟩
  | .hbm, ⟨33, _⟩ => ⟨S1000000, .i32⟩
  | .hbm, ⟨34, _⟩ => ⟨S100000x20, .f32⟩
  | .hbm, ⟨35, _⟩ => ⟨S100000x20, .f32⟩
  | .hbm, ⟨36, _⟩ => ⟨S1000000x8, .f32⟩
  | .hbm, ⟨37, _⟩ => ⟨S1000000x8, .f32⟩
  | .hbm, ⟨38, _⟩ => ⟨S5x80, .f32⟩
  | .hbm, ⟨39, _⟩ => ⟨S20x80, .f32⟩
  | .hbm, ⟨40, _⟩ => ⟨S2x32, .f32⟩
  | .hbm, ⟨41, _⟩ => ⟨S8x32, .f32⟩
  | .hbm, ⟨42, _⟩ => ⟨S58x64, .f32⟩
  | .hbm, ⟨43, _⟩ => ⟨S64x32, .f32⟩
  | .hbm, ⟨44, _⟩ => ⟨S60x64, .f32⟩
  | .hbm, ⟨45, _⟩ => ⟨S64x64, .f32⟩
  | .hbm, ⟨46, _⟩ => ⟨S64x4, .f32⟩
  | .hbm, ⟨47, _⟩ => ⟨S1000000x8, .f32⟩
  | .hbm, ⟨48, _⟩ => ⟨S1000000x8, .f32⟩
  | .hbm, ⟨49, _⟩ => ⟨S_, .f32⟩
  | .hbm, ⟨50, _⟩ => ⟨S100000x8, .f32⟩
  | .hbm, ⟨51, _⟩ => ⟨S1000000x1, .i32⟩
  | .hbm, ⟨52, _⟩ => ⟨S100000x8, .f32⟩
  | .hbm, ⟨53, _⟩ => ⟨S100000x20, .f32⟩
  | .hbm, ⟨54, _⟩ => ⟨S100000x20, .f32⟩
  | .hbm, ⟨55, _⟩ => ⟨S100000x28, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x28, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x28, .f32⟩
  | .hbm, ⟨74, _⟩ => ⟨S1000000x58, .f32⟩
  | .hbm, ⟨75, _⟩ => ⟨S1000000x32, .f32⟩
  | .hbm, ⟨76, _⟩ => ⟨S_, .f32⟩
  | .hbm, ⟨77, _⟩ => ⟨S100000x32, .f32⟩
  | .hbm, ⟨78, _⟩ => ⟨S1000000x1, .i32⟩
  | .hbm, ⟨79, _⟩ => ⟨S100000x32, .f32⟩
  | .hbm, ⟨80, _⟩ => ⟨S100000x1, .i1⟩
  | .hbm, ⟨81, _⟩ => ⟨S100000, .i1⟩
  | .hbm, ⟨82, _⟩ => ⟨S100000x1, .i1⟩
  | .hbm, ⟨83, _⟩ => ⟨S100000, .i1⟩
  | .hbm, ⟨84, _⟩ => ⟨S100000, .i1⟩
  | .hbm, ⟨85, _⟩ => ⟨S100000x1, .i1⟩
  | .hbm, ⟨86, _⟩ => ⟨S100000, .i1⟩
  | .hbm, ⟨87, _⟩ => ⟨S100000, .i1⟩
  | .hbm, ⟨88, _⟩ => ⟨S100000x1, .i1⟩
  | .hbm, ⟨89, _⟩ => ⟨S100000, .i1⟩
  | .hbm, ⟨90, _⟩ => ⟨S100000, .i1⟩
  | .hbm, ⟨91, _⟩ => ⟨S100000x1, .i1⟩
  | .hbm, ⟨92, _⟩ => ⟨S100000, .i1⟩
  | .hbm, ⟨93, _⟩ => ⟨S100000, .i1⟩
  | .hbm, ⟨94, _⟩ => ⟨S100000, .f32⟩
  | .hbm, ⟨95, _⟩ => ⟨S100000x1, .f32⟩
  | .hbm, ⟨96, _⟩ => ⟨S100000x4, .f32⟩
  | .hbm, ⟨97, _⟩ => ⟨S1x100000x20, .f32⟩
  | .hbm, ⟨98, _⟩ => ⟨S1x100000x20, .f32⟩
  | .hbm, ⟨99, _⟩ => ⟨S1x1000000x8, .f32⟩
  | .hbm, ⟨100, _⟩ => ⟨S1x1000000x8, .f32⟩
  | .local _ .vmem, ⟨0, _⟩ => ⟨S20000x2, .f32⟩
  | .local _ .vmem, ⟨1, _⟩ => ⟨S20000x2, .f32⟩
  | .local _ .vmem, ⟨2, _⟩ => ⟨S20000x8, .f32⟩
  | .local _ .vmem, ⟨3, _⟩ => ⟨S20000x8, .f32⟩
  | .local _ .vmem, ⟨4, _⟩ => ⟨S20000x8, .f32⟩
  | .local _ .vmem, ⟨5, _⟩ => ⟨S20000x8, .f32⟩
  | .local _ .vmem, ⟨6, _⟩ => ⟨S2x32, .f32⟩
  | .local _ .vmem, ⟨7, _⟩ => ⟨S8x32, .f32⟩
  | .local _ .vmem, ⟨8, _⟩ => ⟨S32, .f32⟩
  | .local _ .vmem, ⟨9, _⟩ => ⟨S32, .f32⟩
  | .local _ .vmem, ⟨10, _⟩ => ⟨S20000x8, .f32⟩
  | .local _ .vmem, ⟨11, _⟩ => ⟨S20000x8, .f32⟩
  | .local _ .vmem, ⟨12, _⟩ => ⟨S20000x8, .f32⟩
  | .local _ .vmem, ⟨13, _⟩ => ⟨S20000x8, .f32⟩
  | .local _ .vmem, ⟨14, _⟩ => ⟨S10000x5, .f32⟩
  | .local _ .vmem, ⟨15, _⟩ => ⟨S10000x5, .f32⟩
  | .local _ .vmem, ⟨16, _⟩ => ⟨S10000x20, .f32⟩
  | .local _ .vmem, ⟨17, _⟩ => ⟨S10000x20, .f32⟩
  | .local _ .vmem, ⟨18, _⟩ => ⟨S10000x20, .f32⟩
  | .local _ .vmem, ⟨19, _⟩ => ⟨S10000x20, .f32⟩
  | .local _ .vmem, ⟨20, _⟩ => ⟨S5x80, .f32⟩
  | .local _ .vmem, ⟨21, _⟩ => ⟨S20x80, .f32⟩
  | .local _ .vmem, ⟨22, _⟩ => ⟨S80, .f32⟩
  | .local _ .vmem, ⟨23, _⟩ => ⟨S80, .f32⟩
  | .local _ .vmem, ⟨24, _⟩ => ⟨S10000x20, .f32⟩
  | .local _ .vmem, ⟨25, _⟩ => ⟨S10000x20, .f32⟩
  | .local _ .vmem, ⟨26, _⟩ => ⟨S10000x20, .f32⟩
  | .local _ .vmem, ⟨27, _⟩ => ⟨S10000x20, .f32⟩
  | .local _ .vmem, ⟨28, _⟩ => ⟨S20000x58, .f32⟩
  | .local _ .vmem, ⟨29, _⟩ => ⟨S20000x58, .f32⟩
  | .local _ .vmem, ⟨30, _⟩ => ⟨S58x64, .f32⟩
  | .local _ .vmem, ⟨31, _⟩ => ⟨S64, .f32⟩
  | .local _ .vmem, ⟨32, _⟩ => ⟨S64x32, .f32⟩
  | .local _ .vmem, ⟨33, _⟩ => ⟨S32, .f32⟩
  | .local _ .vmem, ⟨34, _⟩ => ⟨S20000x32, .f32⟩
  | .local _ .vmem, ⟨35, _⟩ => ⟨S20000x32, .f32⟩
  | .local _ .vmem, ⟨36, _⟩ => ⟨S10000x28, .f32⟩
  | .local _ .vmem, ⟨37, _⟩ => ⟨S10000x28, .f32⟩
  | .local _ .vmem, ⟨38, _⟩ => ⟨S10000x32, .f32⟩
  | .local _ .vmem, ⟨39, _⟩ => ⟨S10000x32, .f32⟩
  | .local _ .vmem, ⟨40, _⟩ => ⟨S10000x1, .f32⟩
  | .local _ .vmem, ⟨41, _⟩ => ⟨S10000x1, .f32⟩
  | .local _ .vmem, ⟨42, _⟩ => ⟨S60x64, .f32⟩
  | .local _ .vmem, ⟨43, _⟩ => ⟨S64, .f32⟩
  | .local _ .vmem, ⟨44, _⟩ => ⟨S64x64, .f32⟩
  | .local _ .vmem, ⟨45, _⟩ => ⟨S64, .f32⟩
  | .local _ .vmem, ⟨46, _⟩ => ⟨S64x4, .f32⟩
  | .local _ .vmem, ⟨47, _⟩ => ⟨S4, .f32⟩
  | .local _ .vmem, ⟨48, _⟩ => ⟨S10000x4, .f32⟩
  | .local _ .vmem, ⟨49, _⟩ => ⟨S10000x4, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21_0 : Ref sig .tc := ⟨.hbm, 47, rfl⟩
abbrev main_v21_1 : Ref sig .tc := ⟨.hbm, 48, rfl⟩
abbrev main_cst_0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_v26 : Ref sig .tc := ⟨.hbm, 55, rfl⟩
abbrev main_c : Ref sig .tc := ⟨.hbm, 56, rfl⟩
abbrev main_v27 : Ref sig .tc := ⟨.hbm, 57, rfl⟩
abbrev main_v28 : Ref sig .tc := ⟨.hbm, 58, rfl⟩
abbrev main_c_1 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_2 : Ref sig .tc := ⟨.hbm, 65, rfl⟩
abbrev main_v34 : Ref sig .tc := ⟨.hbm, 66, rfl⟩
abbrev main_v35 : Ref sig .tc := ⟨.hbm, 67, rfl⟩
abbrev main_c_3 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_4 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg9_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem9_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S20000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S20000x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S5x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S80 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x20 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S10000x20 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x58 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S58x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x28 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S60x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x4 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S4 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x4 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S100000x10_S100000x5_0_5 : S100000x10.Slices ![0, 5] S100000x5
  bcast_S_S100000x5 : S_.BroadcastsInDim S100000x5 (![] : Fin 0 → Fin S100000x5.rank)
  slices_S100000x10_S100000x5_0_0 : S100000x10.Slices ![0, 0] S100000x5
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S1x100000x20_S100000x20 : S1x100000x20.ShapeCasts S100000x20
  shapeCasts_S1x1000000x8_S1000000x8 : S1x1000000x8.ShapeCasts S1000000x8
  transposes_S80x5_S5x80_1_0 : S80x5.Transposes [1, 0] S5x80
  transposes_S80x20_S20x80_1_0 : S80x20.Transposes [1, 0] S20x80
  transposes_S32x2_S2x32_1_0 : S32x2.Transposes [1, 0] S2x32
  transposes_S32x8_S8x32_1_0 : S32x8.Transposes [1, 0] S8x32
  transposes_S64x58_S58x64_1_0 : S64x58.Transposes [1, 0] S58x64
  transposes_S32x64_S64x32_1_0 : S32x64.Transposes [1, 0] S64x32
  transposes_S64x60_S60x64_1_0 : S64x60.Transposes [1, 0] S60x64
  transposes_S64x64_S64x64_1_0 : S64x64.Transposes [1, 0] S64x64
  transposes_S4x64_S64x4_1_0 : S4x64.Transposes [1, 0] S64x4
  inb_S20000x2_S20000x2_0_0 : ∀ a, (![0, 0] : Fin 2 → Nat) a + S20000x2.size a ≤ S20000x2.size a
  h_S20000x2 : 0 < S20000x2.numel
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S20000x8_S20000x8_0_0 : ∀ a, (![0, 0] : Fin 2 → Nat) a + S20000x8.size a ≤ S20000x8.size a
  h_S20000x8 : 0 < S20000x8.numel
  shapeCasts_S20000x8_S20000x8 : S20000x8.ShapeCasts S20000x8
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S32_S32_0 : ∀ a, (![0] : Fin 1 → Nat) a + S32.size a ≤ S32.size a
  h_S32 : 0 < S32.numel
  shapeCasts_S32_S1x32 : S32.ShapeCasts S1x32
  broadcasts_S1x32_S20000x32 : S1x32.Broadcasts S20000x32
  slices_S20000x32_o0_0_S20000x8 : S20000x32.Slices ![0, 0] S20000x8
  slices_S20000x32_o0_8_S20000x8 : S20000x32.Slices ![0, 8] S20000x8
  slices_S20000x32_o0_16_S20000x8 : S20000x32.Slices ![0, 16] S20000x8
  slices_S20000x32_o0_24_S20000x8 : S20000x32.Slices ![0, 24] S20000x8
  bcast_S_S100000x8 : S_.BroadcastsInDim S100000x8 (![] : Fin 0 → Fin S100000x8.rank)
  bcast_S1000000_S1000000x1_0 : S1000000.BroadcastsInDim S1000000x1 (![0] : Fin 1 → Fin S1000000x1.rank)
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  inb_S5x80_S5x80_0_0 : ∀ a, (![0, 0] : Fin 2 → Nat) a + S5x80.size a ≤ S5x80.size a
  h_S5x80 : 0 < S5x80.numel
  shapeCasts_S5x80_S5x80 : S5x80.ShapeCasts S5x80
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  inb_S20x80_S20x80_0_0 : ∀ a, (![0, 0] : Fin 2 → Nat) a + S20x80.size a ≤ S20x80.size a
  h_S20x80 : 0 < S20x80.numel
  shapeCasts_S20x80_S20x80 : S20x80.ShapeCasts S20x80
  inb_S80_S80_0 : ∀ a, (![0] : Fin 1 → Nat) a + S80.size a ≤ S80.size a
  h_S80 : 0 < S80.numel
  shapeCasts_S80_S1x80 : S80.ShapeCasts S1x80
  broadcasts_S1x80_S10000x80 : S1x80.Broadcasts S10000x80
  slices_S10000x80_o0_0_S10000x20 : S10000x80.Slices ![0, 0] S10000x20
  slices_S10000x80_o0_20_S10000x20 : S10000x80.Slices ![0, 20] S10000x20
  slices_S10000x80_o0_40_S10000x20 : S10000x80.Slices ![0, 40] S10000x20
  slices_S10000x80_o0_60_S10000x20 : S10000x80.Slices ![0, 60] S10000x20
  concatenates_S100000x20_S100000x8_S100000x28_d1 : Shape.Concatenates [S100000x20, S100000x8] S100000x28 1
  bcast_S_S1000000 : S_.BroadcastsInDim S1000000 (![] : Fin 0 → Fin S1000000.rank)
  concatenates_S1000000x28_S1000000x28_S1000000x2_S1000000x58_d1 : Shape.Concatenates [S1000000x28, S1000000x28, S1000000x2] S1000000x58 1
  inb_S20000x58_S20000x58_0_0 : ∀ a, (![0, 0] : Fin 2 → Nat) a + S20000x58.size a ≤ S20000x58.size a
  h_S20000x58 : 0 < S20000x58.numel
  shapeCasts_S20000x58_S20000x58 : S20000x58.ShapeCasts S20000x58
  inb_S58x64_S58x64_0_0 : ∀ a, (![0, 0] : Fin 2 → Nat) a + S58x64.size a ≤ S58x64.size a
  h_S58x64 : 0 < S58x64.numel
  shapeCasts_S58x64_S58x64 : S58x64.ShapeCasts S58x64
  inb_S64_S64_0 : ∀ a, (![0] : Fin 1 → Nat) a + S64.size a ≤ S64.size a
  h_S64 : 0 < S64.numel
  shapeCasts_S64_S1x64 : S64.ShapeCasts S1x64
  broadcasts_S1x64_S20000x64 : S1x64.Broadcasts S20000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S20000x32_S20000x32_0_0 : ∀ a, (![0, 0] : Fin 2 → Nat) a + S20000x32.size a ≤ S20000x32.size a
  h_S20000x32 : 0 < S20000x32.numel
  bcast_S_S100000x32 : S_.BroadcastsInDim S100000x32 (![] : Fin 0 → Fin S100000x32.rank)
  slices_S100000x5_S100000x1_0_0 : S100000x5.Slices ![0, 0] S100000x1
  shapeCasts_S100000x1_S100000 : S100000x1.ShapeCasts S100000
  slices_S100000x5_S100000x1_0_1 : S100000x5.Slices ![0, 1] S100000x1
  slices_S100000x5_S100000x1_0_4 : S100000x5.Slices ![0, 4] S100000x1
  slices_S100000x5_S100000x1_0_2 : S100000x5.Slices ![0, 2] S100000x1
  slices_S100000x5_S100000x1_0_3 : S100000x5.Slices ![0, 3] S100000x1
  bcast_S100000_S100000x1_0 : S100000.BroadcastsInDim S100000x1 (![0] : Fin 1 → Fin S100000x1.rank)
  inb_S10000x28_S10000x28_0_0 : ∀ a, (![0, 0] : Fin 2 → Nat) a + S10000x28.size a ≤ S10000x28.size a
  h_S10000x28 : 0 < S10000x28.numel
  shapeCasts_S10000x28_S10000x28 : S10000x28.ShapeCasts S10000x28
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  concatenates_S10000x28_S10000x32_S10000x60_d1 : Shape.Concatenates [S10000x28, S10000x32] S10000x60 1
  inb_S60x64_S60x64_0_0 : ∀ a, (![0, 0] : Fin 2 → Nat) a + S60x64.size a ≤ S60x64.size a
  h_S60x64 : 0 < S60x64.numel
  shapeCasts_S60x64_S60x64 : S60x64.ShapeCasts S60x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S4_S4_0 : ∀ a, (![0] : Fin 1 → Nat) a + S4.size a ≤ S4.size a
  h_S4 : 0 < S4.numel
  shapeCasts_S4_S1x4 : S4.ShapeCasts S1x4
  broadcasts_S1x4_S10000x4 : S1x4.Broadcasts S10000x4
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x4 : S10000x1.Broadcasts S10000x4
  inb_S10000x4_S10000x4_0_0 : ∀ a, (![0, 0] : Fin 2 → Nat) a + S10000x4.size a ≤ S10000x4.size a
  h_S10000x4 : 0 < S10000x4.numel
  bcast_S100000x20_S1x100000x20_1_2 : S100000x20.BroadcastsInDim S1x100000x20 (![1, 2] : Fin 2 → Fin S1x100000x20.rank)
  bcast_S1000000x8_S1x1000000x8_1_2 : S1000000x8.BroadcastsInDim S1x1000000x8 (![1, 2] : Fin 2 → Fin S1x1000000x8.rank)
  dot_S20000x2_S2x32_S20000x32_1_0_0_1_n_n_wf : DotDims.WF S20000x2 S2x32 S20000x32 [1] [0] [0] [1] [] []
  dot_S20000x8_S8x32_S20000x32_1_0_0_1_n_n_wf : DotDims.WF S20000x8 S8x32 S20000x32 [1] [0] [0] [1] [] []
  scatter_S100000x8_S1000000x1_S1000000x8_1_0_0_1_wf : ScatterDims.WF S100000x8 S1000000x1 S1000000x8 [1] [0] [0] 1
  dot_S10000x5_S5x80_S10000x80_1_0_0_1_n_n_wf : DotDims.WF S10000x5 S5x80 S10000x80 [1] [0] [0] [1] [] []
  dot_S10000x20_S20x80_S10000x80_1_0_0_1_n_n_wf : DotDims.WF S10000x20 S20x80 S10000x80 [1] [0] [0] [1] [] []
  gather_S100000x28_S1000000x1_S1000000x28_1_0_n_n_0_1_128_wf : GatherDims.WF S100000x28 S1000000x1 S1000000x28 [1] [0] [] [0] [] 1 ![1, 28]
  dot_S20000x58_S58x64_S20000x64_1_0_0_1_n_n_wf : DotDims.WF S20000x58 S58x64 S20000x64 [1] [0] [0] [1] [] []
  dot_S20000x64_S64x32_S20000x32_1_0_0_1_n_n_wf : DotDims.WF S20000x64 S64x32 S20000x32 [1] [0] [0] [1] [] []
  scatter_S100000x32_S1000000x1_S1000000x32_1_0_0_1_wf : ScatterDims.WF S100000x32 S1000000x1 S1000000x32 [1] [0] [0] 1
  dot_S10000x60_S60x64_S10000x64_1_0_0_1_n_n_wf : DotDims.WF S10000x60 S60x64 S10000x64 [1] [0] [0] [1] [] []
  dot_S10000x64_S64x64_S10000x64_1_0_0_1_n_n_wf : DotDims.WF S10000x64 S64x64 S10000x64 [1] [0] [0] [1] [] []
  dot_S10000x64_S64x4_S10000x4_1_0_0_1_n_n_wf : DotDims.WF S10000x64 S64x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x2.size a ≤ S1000000x2.size a
  hwx0_0 : ∀ i : grid0.Coords, EltTy.bits .f32 = 32 ∨ (Rect.block (s := S1000000x2) S20000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x8.size a ≤ S1000000x8.size a
  hwx0_1 : ∀ i : grid0.Coords, EltTy.bits .f32 = 32 ∨ (Rect.block (s := S1000000x8) S20000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x8.size a ≤ S1000000x8.size a
  hwx0_2 : ∀ i : grid0.Coords, EltTy.bits .f32 = 32 ∨ (Rect.block (s := S1000000x8) S20000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32.size a ≤ S2x32.size a
  hwx0_3 : ∀ i : grid0.Coords, EltTy.bits .f32 = 32 ∨ (Rect.block (s := S2x32) S2x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32.size a ≤ S8x32.size a
  hwx0_4 : ∀ i : grid0.Coords, EltTy.bits .f32 = 32 ∨ (Rect.block (s := S8x32) S8x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S20000x8.size a ≤ S1000000x8.size a
  hwx0_7 : ∀ i : grid0.Coords, EltTy.bits .f32 = 32 ∨ (Rect.block (s := S1000000x8) S20000x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S20000x8.size a ≤ S1000000x8.size a
  hwx0_8 : ∀ i : grid0.Coords, EltTy.bits .f32 = 32 ∨ (Rect.block (s := S1000000x8) S20000x8.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x5.size a ≤ S100000x5.size a
  hwx1_0 : ∀ i : grid1.Coords, EltTy.bits .f32 = 32 ∨ (Rect.block (s := S100000x5) S10000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x20.size a ≤ S100000x20.size a
  hwx1_1 : ∀ i : grid1.Coords, EltTy.bits .f32 = 32 ∨ (Rect.block (s := S100000x20) S10000x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x20.size a ≤ S100000x20.size a
  hwx1_2 : ∀ i : grid1.Coords, EltTy.bits .f32 = 32 ∨ (Rect.block (s := S100000x20) S10000x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x80.size a ≤ S5x80.size a
  hwx1_3 : ∀ i : grid1.Coords, EltTy.bits .f32 = 32 ∨ (Rect.block (s := S5x80) S5x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20x80.size a ≤ S20x80.size a
  hwx1_4 : ∀ i : grid1.Coords, EltTy.bits .f32 = 32 ∨ (Rect.block (s := S20x80) S20x80.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S80.size a ≤ S80.size a
  hwx1_5 : ∀ i : grid1.Coords, EltTy.bits .f32 = 32 ∨ (Rect.block (s := S80) S80.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S80.size a ≤ S80.size a
  hwx1_6 : ∀ i : grid1.Coords, EltTy.bits .f32 = 32 ∨ (Rect.block (s := S80) S80.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x20.size a ≤ S100000x20.size a
  hwx1_7 : ∀ i : grid1.Coords, EltTy.bits .f32 = 32 ∨ (Rect.block (s := S100000x20) S10000x20.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x20.size a ≤ S100000x20.size a
  hwx1_8 : ∀ i : grid1.Coords, EltTy.bits .f32 = 32 ∨ (Rect.block (s := S100000x20) S10000x20.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x58.size a ≤ S1000000x58.size a
  hwx2_0 : ∀ i : grid2.Coords, EltTy.bits .f32 = 32 ∨ (Rect.block (s := S1000000x58) S20000x58.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S58x64.size a ≤ S58x64.size a
  hwx2_1 : ∀ i : grid2.Coords, EltTy.bits .f32 = 32 ∨ (Rect.block (s := S58x64) S58x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x32.size a ≤ S1000000x32.size a
  hwx2_5 : ∀ i : grid2.Coords, EltTy.bits .f32 = 32 ∨ (Rect.block (s := S1000000x32) S20000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x28.size a ≤ S100000x28.size a
  hwx3_0 : ∀ i : grid3.Coords, EltTy.bits .f32 = 32 ∨ (Rect.block (s := S100000x28) S10000x28.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S60x64.size a ≤ S60x64.size a
  hwx3_3 : ∀ i : grid3.Coords, EltTy.bits .f32 = 32 ∨ (Rect.block (s := S60x64) S60x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x4.size a ≤ S64x4.size a
  hwx3_7 : ∀ i : grid3.Coords, EltTy.bits .f32 = 32 ∨ (Rect.block (s := S64x4) S64x4.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S4.size a ≤ S4.size a
  hwx3_8 : ∀ i : grid3.Coords, EltTy.bits .f32 = 32 ∨ (Rect.block (s := S4) S4.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S10000x4.size a ≤ S100000x4.size a
  hwx3_9 : ∀ i : grid3.Coords, EltTy.bits .f32 = 32 ∨ (Rect.block (s := S100000x4) S10000x4.size (cc3_transform_9 i) (hinb3_9 i)).WholeWords (EltTy.packing .f32)

variable [Facts₀]

def dot_S20000x2_S2x32_S20000x32_1_0_0_1_n_n : DotDims S20000x2 S2x32 S20000x32 where
  lhsContracting := [1]
  rhsContracting := [0]
  lhsNonContracting := [0]
  rhsNonContracting := [1]
  lhsBatch := []
  rhsBatch := []
  wf := dot_S20000x2_S2x32_S20000x32_1_0_0_1_n_n_wf
def dot_S20000x8_S8x32_S20000x32_1_0_0_1_n_n : DotDims S20000x8 S8x32 S20000x32 where
  lhsContracting := [1]
  rhsContracting := [0]
  lhsNonContracting := [0]
  rhsNonContracting := [1]
  lhsBatch := []
  rhsBatch := []
  wf := dot_S20000x8_S8x32_S20000x32_1_0_0_1_n_n_wf
def scatter_S100000x8_S1000000x1_S1000000x8_1_0_0_1 : ScatterDims S100000x8 S1000000x1 S1000000x8 where
  updateWindowDims := [1]
  insertedWindowDims := [0]
  scatterDimsToOperandDims := [0]
  indexVectorDim := 1
  wf := scatter_S100000x8_S1000000x1_S1000000x8_1_0_0_1_wf
def dot_S10000x5_S5x80_S10000x80_1_0_0_1_n_n : DotDims S10000x5 S5x80 S10000x80 where
  lhsContracting := [1]
  rhsContracting := [0]
  lhsNonContracting := [0]
  rhsNonContracting := [1]
  lhsBatch := []
  rhsBatch := []
  wf := dot_S10000x5_S5x80_S10000x80_1_0_0_1_n_n_wf
def dot_S10000x20_S20x80_S10000x80_1_0_0_1_n_n : DotDims S10000x20 S20x80 S10000x80 where
  lhsContracting := [1]
  rhsContracting := [0]
  lhsNonContracting := [0]
  rhsNonContracting := [1]
  lhsBatch := []
  rhsBatch := []
  wf := dot_S10000x20_S20x80_S10000x80_1_0_0_1_n_n_wf
def gather_S100000x28_S1000000x1_S1000000x28_1_0_n_n_0_1_128 : GatherDims S100000x28 S1000000x1 S1000000x28 where
  offsetDims := [1]
  collapsedSliceDims := [0]
  operandBatchingDims := []
  startIndicesBatchingDims := []
  startIndexMap := [0]
  indexVectorDim := 1
  sliceSizes := ![1, 28]
  wf := gather_S100000x28_S1000000x1_S1000000x28_1_0_n_n_0_1_128_wf
def dot_S20000x58_S58x64_S20000x64_1_0_0_1_n_n : DotDims S20000x58 S58x64 S20000x64 where
  lhsContracting := [1]
  rhsContracting := [0]
  lhsNonContracting := [0]
  rhsNonContracting := [1]
  lhsBatch := []
  rhsBatch := []
  wf := dot_S20000x58_S58x64_S20000x64_1_0_0_1_n_n_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S10000x60_S60x64_S10000x64_1_0_0_1_n_n : DotDims S10000x60 S60x64 S10000x64 where
  lhsContracting := [1]
  rhsContracting := [0]
  lhsNonContracting := [0]
  rhsNonContracting := [1]
  lhsBatch := []
  rhsBatch := []
  wf := dot_S10000x60_S60x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf

abbrev win0_0 : Pipeline.Window sig grid0 :=
  Pipeline.Window.ofSpec (Memref.whole main_arg2) S20000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S20000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S20000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S20000x8.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S20000x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v3) S10000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S10000x20.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S20x80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S80.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S80.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25_0) S10000x20.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v25_1) S10000x20.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v41) S20000x58.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S58x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S20000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S10000x28.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S60x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg20) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg22) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v20) S64x4.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg24) S4.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v62) S10000x4.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x10 : Shape := ⟨2, ![100000, 10]⟩
abbrev S2x1000000 : Shape := ⟨2, ![2, 1000000]⟩
abbrev S1000000x2 : Shape := ⟨2, ![1000000, 2]⟩
abbrev S1x100000x20 : Shape := ⟨3, ![1, 100000, 20]⟩
abbrev S1x1000000x8 : Shape := ⟨3, ![1, 1000000, 8]⟩
abbrev S80x5 : Shape := ⟨2, ![80, 5]⟩
abbrev S80x20 : Shape := ⟨2, ![80, 20]⟩
abbrev S80 : Shape := ⟨1, ![80]⟩
abbrev S32x2 : Shape := ⟨2, ![32, 2]⟩
abbrev S32x8 : Shape := ⟨2, ![32, 8]⟩
abbrev S32 : Shape := ⟨1, ![32]⟩
abbrev S64x58 : Shape := ⟨2, ![64, 58]⟩
abbrev S64 : Shape := ⟨1, ![64]⟩
abbrev S32x64 : Shape := ⟨2, ![32, 64]⟩
abbrev S64x60 : Shape := ⟨2, ![64, 60]⟩
abbrev S64x64 : Shape := ⟨2, ![64, 64]⟩
abbrev S4x64 : Shape := ⟨2, ![4, 64]⟩
abbrev S4 : Shape := ⟨1, ![4]⟩
abbrev S100000x5 : Shape := ⟨2, ![100000, 5]⟩
abbrev S_ : Shape := ⟨0, ![]⟩
abbrev S1x1000000 : Shape := ⟨2, ![1, 1000000]⟩
abbrev S1000000 : Shape := ⟨1, ![1000000]⟩
abbrev S1000000x8 : Shape := ⟨2, ![1000000, 8]⟩
abbrev S2x32 : Shape := ⟨2, ![2, 32]⟩
abbrev S1000000x32 : Shape := ⟨2, ![1000000, 32]⟩
abbrev S8x32 : Shape := ⟨2, ![8, 32]⟩
abbrev S1x32 : Shape := ⟨2, ![1, 32]⟩
abbrev S100000x8 : Shape := ⟨2, ![100000, 8]⟩
abbrev S1000000x1 : Shape := ⟨2, ![1000000, 1]⟩
abbrev S100000x20 : Shape := ⟨2, ![100000, 20]⟩
abbrev S5x80 : Shape := ⟨2, ![5, 80]⟩
abbrev S100000x80 : Shape := ⟨2, ![100000, 80]⟩
abbrev S20x80 : Shape := ⟨2, ![20, 80]⟩
abbrev S1x80 : Shape := ⟨2, ![1, 80]⟩
abbrev S100000x28 : Shape := ⟨2, ![100000, 28]⟩
abbrev S1000000x28 : Shape := ⟨2, ![1000000, 28]⟩
abbrev S1000000x58 : Shape := ⟨2, ![1000000, 58]⟩
abbrev S58x64 : Shape := ⟨2, ![58, 64]⟩
abbrev S1000000x64 : Shape := ⟨2, ![1000000, 64]⟩
abbrev S1x64 : Shape := ⟨2, ![1, 64]⟩
abbrev S64x32 : Shape := ⟨2, ![64, 32]⟩
abbrev S100000x32 : Shape := ⟨2, ![100000, 32]⟩
abbrev S100000x60 : Shape := ⟨2, ![100000, 60]⟩
abbrev S60x64 : Shape := ⟨2, ![60, 64]⟩
abbrev S100000x64 : Shape := ⟨2, ![100000, 64]⟩
abbrev S64x4 : Shape := ⟨2, ![64, 4]⟩
abbrev S100000x4 : Shape := ⟨2, ![100000, 4]⟩
abbrev S1x4 : Shape := ⟨2, ![1, 4]⟩
abbrev S100000x1 : Shape := ⟨2, ![100000, 1]⟩
abbrev S100000 : Shape := ⟨1, ![100000]⟩

abbrev nBuf : Space → Nat
  | .hbm => 226
  | .vmem => 0
  | .smem => 0
  | _ => 0

abbrev hbmTy0_0 (i : Nat) : BufTy := match i % 128 with
  | 0 => ⟨S100000x10, .f32⟩
  | 1 => ⟨S2x1000000, .i32⟩
  | 2 => ⟨S1000000x2, .f32⟩
  | 3 => ⟨S1x100000x20, .f32⟩
  | 4 => ⟨S1x100000x20, .f32⟩
  | 5 => ⟨S1x1000000x8, .f32⟩
  | 6 => ⟨S1x1000000x8, .f32⟩
  | 7 => ⟨S80x5, .f32⟩
  | 8 => ⟨S80x20, .f32⟩
  | 9 => ⟨S80, .f32⟩
  | 10 => ⟨S80, .f32⟩
  | 11 => ⟨S32x2, .f32⟩
  | 12 => ⟨S32x8, .f32⟩
  | 13 => ⟨S32, .f32⟩
  | 14 => ⟨S32, .f32⟩
  | 15 => ⟨S64x58, .f32⟩
  | 16 => ⟨S64, .f32⟩
  | 17 => ⟨S32x64, .f32⟩
  | 18 => ⟨S32, .f32⟩
  | 19 => ⟨S64x60, .f32⟩
  | 20 => ⟨S64, .f32⟩
  | 21 => ⟨S64x64, .f32⟩
  | 22 => ⟨S64, .f32⟩
  | 23 => ⟨S4x64, .f32⟩
  | 24 => ⟨S4, .f32⟩
  | 25 => ⟨S100000x5, .f32⟩
  | 26 => ⟨S_, .f32⟩
  | 27 => ⟨S100000x5, .f32⟩
  | 28 => ⟨S100000x5, .i1⟩
  | 29 => ⟨S100000x5, .f32⟩
  | 30 => ⟨S1x1000000, .i32⟩
  | 31 => ⟨S1000000, .i32⟩
  | 32 => ⟨S1x1000000, .i32⟩
  | 33 => ⟨S1000000, .i32⟩
  | 34 => ⟨S1000000x8, .f32⟩
  | 35 => ⟨S1000000x8, .f32⟩
  | 36 => ⟨S2x32, .f32⟩
  | 37 => ⟨S1000000x32, .f32⟩
  | 38 => ⟨S8x32, .f32⟩
  | 39 => ⟨S1000000x32, .f32⟩
  | 40 => ⟨S1000000x32, .f32⟩
  | 41 => ⟨S1x32, .f32⟩
  | 42 => ⟨S1000000x32, .f32⟩
  | 43 => ⟨S1000000x32, .f32⟩
  | 44 => ⟨S1x32, .f32⟩
  | 45 => ⟨S1000000x32, .f32⟩
  | 46 => ⟨S1000000x32, .f32⟩
  | 47 => ⟨S1000000x8, .f32⟩
  | 48 => ⟨S1000000x8, .f32⟩
  | 49 => ⟨S1000000x8, .f32⟩
  | 50 => ⟨S1000000x8, .f32⟩
  | 51 => ⟨S1000000x8, .f32⟩
  | 52 => ⟨S1000000x8, .f32⟩
  | 53 => ⟨S_, .f32⟩
  | 54 => ⟨S1000000x8, .f32⟩
  | 55 => ⟨S1000000x8, .f32⟩
  | 56 => ⟨S_, .f32⟩
  | 57 => ⟨S1000000x8, .f32⟩
  | 58 => ⟨S1000000x8, .f32⟩
  | 59 => ⟨S1000000x8, .f32⟩
  | 60 => ⟨S1000000x8, .f32⟩
  | 61 => ⟨S1000000x8, .f32⟩
  | 62 => ⟨S_, .f32⟩
  | 63 => ⟨S1000000x8, .f32⟩
  | 64 => ⟨S1000000x8, .f32⟩
  | 65 => ⟨S_, .f32⟩
  | 66 => ⟨S1000000x8, .f32⟩
  | 67 => ⟨S1000000x8, .f32⟩
  | 68 => ⟨S1000000x8, .f32⟩
  | 69 => ⟨S1000000x8, .f32⟩
  | 70 => ⟨S1000000x8, .f32⟩
  | 71 => ⟨S1000000x8, .f32⟩
  | 72 => ⟨S1000000x8, .f32⟩
  | 73 => ⟨S_, .f32⟩
  | 74 => ⟨S1000000x8, .f32⟩
  | 75 => ⟨S1000000x8, .f32⟩
  | 76 => ⟨S_, .f32⟩
  | 77 => ⟨S1000000x8, .f32⟩
  | 78 => ⟨S1000000x8, .f32⟩
  | 79 => ⟨S1000000x8, .f32⟩
  | 80 => ⟨S1000000x8, .f32⟩
  | 81 => ⟨S_, .f32⟩
  | 82 => ⟨S100000x8, .f32⟩
  | 83 => ⟨S1000000x1, .i32⟩
  | 84 => ⟨S100000x8, .f32⟩
  | 85 => ⟨S100000x20, .f32⟩
  | 86 => ⟨S100000x20, .f32⟩
  | 87 => ⟨S5x80, .f32⟩
  | 88 => ⟨S100000x80, .f32⟩
  | 89 => ⟨S20x80, .f32⟩
  | 90 => ⟨S100000x80, .f32⟩
  | 91 => ⟨S100000x80, .f32⟩
  | 92 => ⟨S1x80, .f32⟩
  | 93 => ⟨S100000x80, .f32⟩
  | 94 => ⟨S100000x80, .f32⟩
  | 95 => ⟨S1x80, .f32⟩
  | 96 => ⟨S100000x80, .f32⟩
  | 97 => ⟨S100000x80, .f32⟩
  | 98 => ⟨S100000x20, .f32⟩
  | 99 => ⟨S100000x20, .f32⟩
  | 100 => ⟨S100000x20, .f32⟩
  | 101 => ⟨S100000x20, .f32⟩
  | 102 => ⟨S100000x20, .f32⟩
  | 103 => ⟨S100000x20, .f32⟩
  | 104 => ⟨S_, .f32⟩
  | 105 => ⟨S100000x20, .f32⟩
  | 106 => ⟨S100000x20, .f32⟩
  | 107 => ⟨S_, .f32⟩
  | 108 => ⟨S100000x20, .f32⟩
  | 109 => ⟨S100000x20, .f32⟩
  | 110 => ⟨S100000x20, .f32⟩
  | 111 => ⟨S100000x20, .f32⟩
  | 112 => ⟨S100000x20, .f32⟩
  | 113 => ⟨S_, .f32⟩
  | 114 => ⟨S100000x20, .f32⟩
  | 115 => ⟨S100000x20, .f32⟩
  | 116 => ⟨S_, .f32⟩
  | 117 => ⟨S100000x20, .f32⟩
  | 118 => ⟨S100000x20, .f32⟩
  | 119 => ⟨S100000x20, .f32⟩
  | 120 => ⟨S100000x20, .f32⟩
  | 121 => ⟨S100000x20, .f32⟩
  | 122 => ⟨S100000x20, .f32⟩
  | 123 => ⟨S100000x20, .f32⟩
  | 124 => ⟨S_, .f32⟩
  | 125 => ⟨S100000x20, .f32⟩
  | 126 => ⟨S100000x20, .f32⟩
  | 127 => ⟨S_, .f32⟩
  | _ => ⟨S100000x10, .f32⟩

abbrev hbmTy0_1 (i : Nat) : BufTy := match i % 128 with
  | 0 => ⟨S100000x20, .f32⟩
  | 1 => ⟨S100000x20, .f32⟩
  | 2 => ⟨S100000x20, .f32⟩
  | 3 => ⟨S100000x20, .f32⟩
  | 4 => ⟨S100000x28, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x28, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x28, .f32⟩
  | 23 => ⟨S1000000x58, .f32⟩
  | 24 => ⟨S58x64, .f32⟩
  | 25 => ⟨S1000000x64, .f32⟩
  | 26 => ⟨S1x64, .f32⟩
  | 27 => ⟨S1000000x64, .f32⟩
  | 28 => ⟨S1000000x64, .f32⟩
  | 29 => ⟨S_, .f32⟩
  | 30 => ⟨S1000000x64, .f32⟩
  | 31 => ⟨S1000000x64, .i1⟩
  | 32 => ⟨S_, .f32⟩
  | 33 => ⟨S1000000x64, .f32⟩
  | 34 => ⟨S1000000x64, .f32⟩
  | 35 => ⟨S1000000x64, .f32⟩
  | 36 => ⟨S64x32, .f32⟩
  | 37 => ⟨S1000000x32, .f32⟩
  | 38 => ⟨S1x32, .f32⟩
  | 39 => ⟨S1000000x32, .f32⟩
  | 40 => ⟨S1000000x32, .f32⟩
  | 41 => ⟨S_, .f32⟩
  | 42 => ⟨S100000x32, .f32⟩
  | 43 => ⟨S1000000x1, .i32⟩
  | 44 => ⟨S100000x32, .f32⟩
  | 45 => ⟨S100000x60, .f32⟩
  | 46 => ⟨S60x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .i1⟩
  | 54 => ⟨S_, .f32⟩
  | 55 => ⟨S100000x64, .f32⟩
  | 56 => ⟨S100000x64, .f32⟩
  | 57 => ⟨S100000x64, .f32⟩
  | 58 => ⟨S64x64, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .i1⟩
  | 66 => ⟨S_, .f32⟩
  | 67 => ⟨S100000x64, .f32⟩
  | 68 => ⟨S100000x64, .f32⟩
  | 69 => ⟨S100000x64, .f32⟩
  | 70 => ⟨S64x4, .f32⟩
  | 71 => ⟨S100000x4, .f32⟩
  | 72 => ⟨S1x4, .f32⟩
  | 73 => ⟨S100000x4, .f32⟩
  | 74 => ⟨S100000x4, .f32⟩
  | 75 => ⟨S100000x1, .i1⟩
  | 76 => ⟨S100000, .i1⟩
  | 77 => ⟨S100000x1, .i1⟩
  | 78 => ⟨S100000, .i1⟩
  | 79 => ⟨S100000, .i1⟩
  | 80 => ⟨S100000x1, .i1⟩
  | 81 => ⟨S100000, .i1⟩
  | 82 => ⟨S100000, .i1⟩
  | 83 => ⟨S100000x1, .i1⟩
  | 84 => ⟨S100000, .i1⟩
  | 85 => ⟨S100000, .i1⟩
  | 86 => ⟨S100000x1, .i1⟩
  | 87 => ⟨S100000, .i1⟩
  | 88 => ⟨S100000, .i1⟩
  | 89 => ⟨S100000x1, .i1⟩
  | 90 => ⟨S_, .f32⟩
  | 91 => ⟨S100000x4, .i1⟩
  | 92 => ⟨S100000x4, .f32⟩
  | 93 => ⟨S100000x4, .f32⟩
  | 94 => ⟨S1x100000x20, .f32⟩
  | 95 => ⟨S1x100000x20, .f32⟩
  | 96 => ⟨S1x1000000x8, .f32⟩
  | 97 => ⟨S1x1000000x8, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_0 : Ref sig .tc := ⟨.hbm, 53, rfl⟩
abbrev main_v27 : Ref sig .tc := ⟨.hbm, 54, rfl⟩
abbrev main_v28 : Ref sig .tc := ⟨.hbm, 55, rfl⟩
abbrev main_cst_1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_cst_5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_9 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_11 : Ref sig .tc := ⟨.hbm, 124, rfl⟩
abbrev main_v87 : Ref sig .tc := ⟨.hbm, 125, rfl⟩
abbrev main_v88 : Ref sig .tc := ⟨.hbm, 126, rfl⟩
abbrev main_cst_12 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c : Ref sig .tc := ⟨.hbm, 133, rfl⟩
abbrev main_v94 : Ref sig .tc := ⟨.hbm, 134, rfl⟩
abbrev main_v95 : Ref sig .tc := ⟨.hbm, 135, rfl⟩
abbrev main_c_13 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_14 : Ref sig .tc := ⟨.hbm, 142, rfl⟩
abbrev main_v101 : Ref sig .tc := ⟨.hbm, 143, rfl⟩
abbrev main_v102 : Ref sig .tc := ⟨.hbm, 144, rfl⟩
abbrev main_c_15 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call0_cst : Ref sig .tc := ⟨.hbm, 157, rfl⟩
abbrev main_call0_v0 : Ref sig .tc := ⟨.hbm, 158, rfl⟩
abbrev main_call0_v1 : Ref sig .tc := ⟨.hbm, 159, rfl⟩
abbrev main_call0_cst_0 : Ref sig .tc := ⟨.hbm, 160, rfl⟩
abbrev main_call0_v2 : Ref sig .tc := ⟨.hbm, 161, rfl⟩
abbrev main_call0_v3 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_16 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_call1_cst : Ref sig .tc := ⟨.hbm, 179, rfl⟩
abbrev main_call1_v0 : Ref sig .tc := ⟨.hbm, 180, rfl⟩
abbrev main_call1_v1 : Ref sig .tc := ⟨.hbm, 181, rfl⟩
abbrev main_call1_cst_0 : Ref sig .tc := ⟨.hbm, 182, rfl⟩
abbrev main_call1_v2 : Ref sig .tc := ⟨.hbm, 183, rfl⟩
abbrev main_call1_v3 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call2_cst : Ref sig .tc := ⟨.hbm, 191, rfl⟩
abbrev main_call2_v0 : Ref sig .tc := ⟨.hbm, 192, rfl⟩
abbrev main_call2_v1 : Ref sig .tc := ⟨.hbm, 193, rfl⟩
abbrev main_call2_cst_0 : Ref sig .tc := ⟨.hbm, 194, rfl⟩
abbrev main_call2_v2 : Ref sig .tc := ⟨.hbm, 195, rfl⟩
abbrev main_call2_v3 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_17 : Ref sig .tc := ⟨.hbm, 218, rfl⟩
abbrev main_call3_v0 : Ref sig .tc := ⟨.hbm, 219, rfl⟩
abbrev main_call3_v1 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩

abbrev nD : Nat := 1
abbrev τ : Topo := Topo.v7x

variable {F : FTy → Type} [FloatOps F]

class Facts₀ : Prop where
  slices_S100000x10_S100000x5_0_5 : S100000x10.Slices ![0, 5] S100000x5
  bcast_S_S100000x5 : S_.BroadcastsInDim S100000x5 (![] : Fin 0 → Fin S100000x5.rank)
  slices_S100000x10_S100000x5_0_0 : S100000x10.Slices ![0, 0] S100000x5
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S1x1000000x8_S1000000x8 : S1x1000000x8.ShapeCasts S1000000x8
  transposes_S32x2_S2x32_1_0 : S32x2.Transposes [1, 0] S2x32
  transposes_S32x8_S8x32_1_0 : S32x8.Transposes [1, 0] S8x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  slices_S1000000x32_S1000000x8_0_0 : S1000000x32.Slices ![0, 0] S1000000x8
  slices_S1000000x32_S1000000x8_0_8 : S1000000x32.Slices ![0, 8] S1000000x8
  slices_S1000000x32_S1000000x8_0_16 : S1000000x32.Slices ![0, 16] S1000000x8
  slices_S1000000x32_S1000000x8_0_24 : S1000000x32.Slices ![0, 24] S1000000x8
  bcast_S_S1000000x8 : S_.BroadcastsInDim S1000000x8 (![] : Fin 0 → Fin S1000000x8.rank)
  bcast_S_S100000x8 : S_.BroadcastsInDim S100000x8 (![] : Fin 0 → Fin S100000x8.rank)
  bcast_S1000000_S1000000x1_0 : S1000000.BroadcastsInDim S1000000x1 (![0] : Fin 1 → Fin S1000000x1.rank)
  shapeCasts_S1x100000x20_S100000x20 : S1x100000x20.ShapeCasts S100000x20
  transposes_S80x5_S5x80_1_0 : S80x5.Transposes [1, 0] S5x80
  transposes_S80x20_S20x80_1_0 : S80x20.Transposes [1, 0] S20x80
  bcast_S80_S1x80_1 : S80.BroadcastsInDim S1x80 (![1] : Fin 1 → Fin S1x80.rank)
  bcast_S1x80_S100000x80_0_1 : S1x80.BroadcastsInDim S100000x80 (![0, 1] : Fin 2 → Fin S100000x80.rank)
  slices_S100000x80_S100000x20_0_0 : S100000x80.Slices ![0, 0] S100000x20
  slices_S100000x80_S100000x20_0_20 : S100000x80.Slices ![0, 20] S100000x20
  slices_S100000x80_S100000x20_0_40 : S100000x80.Slices ![0, 40] S100000x20
  slices_S100000x80_S100000x20_0_60 : S100000x80.Slices ![0, 60] S100000x20
  bcast_S_S100000x20 : S_.BroadcastsInDim S100000x20 (![] : Fin 0 → Fin S100000x20.rank)
  concatenates_S100000x20_S100000x8_S100000x28_d1 : Shape.Concatenates [S100000x20, S100000x8] S100000x28 1
  bcast_S_S1000000 : S_.BroadcastsInDim S1000000 (![] : Fin 0 → Fin S1000000.rank)
  concatenates_S1000000x28_S1000000x28_S1000000x2_S1000000x58_d1 : Shape.Concatenates [S1000000x28, S1000000x28, S1000000x2] S1000000x58 1
  transposes_S64x58_S58x64_1_0 : S64x58.Transposes [1, 0] S58x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S32x64_S64x32_1_0 : S32x64.Transposes [1, 0] S64x32
  bcast_S_S100000x32 : S_.BroadcastsInDim S100000x32 (![] : Fin 0 → Fin S100000x32.rank)
  concatenates_S100000x28_S100000x32_S100000x60_d1 : Shape.Concatenates [S100000x28, S100000x32] S100000x60 1
  transposes_S64x60_S60x64_1_0 : S64x60.Transposes [1, 0] S60x64
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  transposes_S4x64_S64x4_1_0 : S4x64.Transposes [1, 0] S64x4
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  slices_S100000x5_S100000x1_0_0 : S100000x5.Slices ![0, 0] S100000x1
  shapeCasts_S100000x1_S100000 : S100000x1.ShapeCasts S100000
  slices_S100000x5_S100000x1_0_1 : S100000x5.Slices ![0, 1] S100000x1
  slices_S100000x5_S100000x1_0_4 : S100000x5.Slices ![0, 4] S100000x1
  slices_S100000x5_S100000x1_0_2 : S100000x5.Slices ![0, 2] S100000x1
  slices_S100000x5_S100000x1_0_3 : S100000x5.Slices ![0, 3] S100000x1
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S_S100000x4 : S_.BroadcastsInDim S100000x4 (![] : Fin 0 → Fin S100000x4.rank)
  bcast_S100000x20_S1x100000x20_1_2 : S100000x20.BroadcastsInDim S1x100000x20 (![1, 2] : Fin 2 → Fin S1x100000x20.rank)
  bcast_S1000000x8_S1x1000000x8_1_2 : S1000000x8.BroadcastsInDim S1x1000000x8 (![1, 2] : Fin 2 → Fin S1x1000000x8.rank)
  dot_S1000000x2_S2x32_S1000000x32_1_0_0_1_n_n_wf : DotDims.WF S1000000x2 S2x32 S1000000x32 [1] [0] [0] [1] [] []
  dot_S1000000x8_S8x32_S1000000x32_1_0_0_1_n_n_wf : DotDims.WF S1000000x8 S8x32 S1000000x32 [1] [0] [0] [1] [] []
  scatter_S100000x8_S1000000x1_S1000000x8_1_0_0_1_wf : ScatterDims.WF S100000x8 S1000000x1 S1000000x8 [1] [0] [0] 1
  dot_S100000x5_S5x80_S100000x80_1_0_0_1_n_n_wf : DotDims.WF S100000x5 S5x80 S100000x80 [1] [0] [0] [1] [] []
  dot_S100000x20_S20x80_S100000x80_1_0_0_1_n_n_wf : DotDims.WF S100000x20 S20x80 S100000x80 [1] [0] [0] [1] [] []
  gather_S100000x28_S1000000x1_S1000000x28_1_0_n_n_0_1_128_wf : GatherDims.WF S100000x28 S1000000x1 S1000000x28 [1] [0] [] [0] [] 1 ![1, 28]
  dot_S1000000x58_S58x64_S1000000x64_1_0_0_1_n_n_wf : DotDims.WF S1000000x58 S58x64 S1000000x64 [1] [0] [0] [1] [] []
  dot_S1000000x64_S64x32_S1000000x32_1_0_0_1_n_n_wf : DotDims.WF S1000000x64 S64x32 S1000000x32 [1] [0] [0] [1] [] []
  scatter_S100000x32_S1000000x1_S1000000x32_1_0_0_1_wf : ScatterDims.WF S100000x32 S1000000x1 S1000000x32 [1] [0] [0] 1
  dot_S100000x60_S60x64_S100000x64_1_0_0_1_n_n_wf : DotDims.WF S100000x60 S60x64 S100000x64 [1] [0] [0] [1] [] []
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []

variable [Facts₀]

def dot_S1000000x2_S2x32_S1000000x32_1_0_0_1_n_n : DotDims S1000000x2 S2x32 S1000000x32 where
  lhsContracting := [1]
  rhsContracting := [0]
  lhsNonContracting := [0]
  rhsNonContracting := [1]
  lhsBatch := []
  rhsBatch := []
  wf := dot_S1000000x2_S2x32_S1000000x32_1_0_0_1_n_n_wf
def dot_S1000000x8_S8x32_S1000000x32_1_0_0_1_n_n : DotDims S1000000x8 S8x32 S1000000x32 where
  lhsContracting := [1]
  rhsContracting := [0]
  lhsNonContracting := [0]
  rhsNonContracting := [1]
  lhsBatch := []
  rhsBatch := []
  wf := dot_S1000000x8_S8x32_S1000000x32_1_0_0_1_n_n_wf
def scatter_S100000x8_S1000000x1_S1000000x8_1_0_0_1 : ScatterDims S100000x8 S1000000x1 S1000000x8 where
  updateWindowDims := [1]
  insertedWindowDims := [0]
  scatterDimsToOperandDims := [0]
  indexVectorDim := 1
  wf := scatter_S100000x8_S1000000x1_S1000000x8_1_0_0_1_wf
def dot_S100000x5_S5x80_S100000x80_1_0_0_1_n_n : DotDims S100000x5 S5x80 S100000x80 where
  lhsContracting := [1]
  rhsContracting := [0]
  lhsNonContracting := [0]
  rhsNonContracting := [1]
  lhsBatch := []
  rhsBatch := []
  wf := dot_S100000x5_S5x80_S100000x80_1_0_0_1_n_n_wf
def dot_S100000x20_S20x80_S100000x80_1_0_0_1_n_n : DotDims S100000x20 S20x80 S100000x80 where
  lhsContracting := [1]
  rhsContracting := [0]
  lhsNonContracting := [0]
  rhsNonContracting := [1]
  lhsBatch := []
  rhsBatch := []
  wf := dot_S100000x20_S20x80_S100000x80_1_0_0_1_n_n_wf
def gather_S100000x28_S1000000x1_S1000000x28_1_0_n_n_0_1_128 : GatherDims S100000x28 S1000000x1 S1000000x28 where
  offsetDims := [1]
  collapsedSliceDims := [0]
  operandBatchingDims := []
  startIndicesBatchingDims := []
  startIndexMap := [0]
  indexVectorDim := 1
  sliceSizes := ![1, 28]
  wf := gather_S100000x28_S1000000x1_S1000000x28_1_0_n_n_0_1_128_wf
def dot_S1000000x58_S58x64_S1000000x64_1_0_0_1_n_n : DotDims S1000000x58 S58x64 S1000000x64 where
  lhsContracting := [1]
  rhsContracting := [0]
  lhsNonContracting := [0]
  rhsNonContracting := [1]
  lhsBatch := []
  rhsBatch := []
  wf := dot_S1000000x58_S58x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S100000x60_S60x64_S100000x64_1_0_0_1_n_n : DotDims S100000x60 S60x64 S100000x64 where
  lhsContracting := [1]
  rhsContracting := [0]
  lhsNonContracting := [0]
  rhsNonContracting := [1]
  lhsBatch := []
  rhsBatch := []
  wf := dot_S100000x60_S60x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.K.Reg0.lean ====
import proofs.«421330_j44495861187264_1_alg».proof.Proof.Gen.Kernel.Launch
import proofs.«421330_j44495861187264_1_alg».proof.Proof.Gen.Kernel.Skeleton
import proofs.«421330_j44495861187264_1_alg».proof.Proof.Gen.Kernel.Points
import Idealize.ShloMosaic.Lib.Pipeline.FrameBody
import Idealize.ShloMosaic.Lib.Tactic

noncomputable section

namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S20000x2 := Rect.unit (s := S20000x2) ![0, 0] S20000x2.size inb_S20000x2_S20000x2_0_0

abbrev rB0 : Rect S20000x8 := Rect.unit (s := S20000x8) ![0, 0] S20000x8.size inb_S20000x8_S20000x8_0_0

abbrev rC0 : Rect S2x32 := Rect.unit (s := S2x32) ![0, 0] S2x32.size inb_S2x32_S2x32_0_0

abbrev rD0 : Rect S8x32 := Rect.unit (s := S8x32) ![0, 0] S8x32.size inb_S8x32_S8x32_0_0

abbrev rE0 : Rect S32 := Rect.unit (s := S32) ![0] S32.size inb_S32_S32_0

def out0_7 (x0 : Vec F S20000x2 .f32) (x1 : Vec F S20000x8 .f32) (x2 : Vec F S20000x8 .f32) (x3 : Vec F S2x32 .f32) (x4 : Vec F S8x32 .f32) (x5 : Vec F S32 .f32) (x6 : Vec F S32 .f32) : Vec F S20000x8 .f32 :=
  View.canon [⟨rB0, k0_pay3 (View.ld x0 rA0) (View.ld x3 rC0) (View.ld x1 rB0) (View.ld x4 rD0) (View.ld x5 rE0) (View.ld x6 rE0) (View.ld x2 rB0)⟩]

def out0_8 (x0 : Vec F S20000x2 .f32) (x1 : Vec F S20000x8 .f32) (x2 : Vec F S20000x8 .f32) (x3 : Vec F S2x32 .f32) (x4 : Vec F S8x32 .f32) (x5 : Vec F S32 .f32) (x6 : Vec F S32 .f32) : Vec F S20000x8 .f32 :=
  View.canon [⟨rB0, k0_pay2 (View.ld x0 rA0) (View.ld x3 rC0) (View.ld x1 rB0) (View.ld x4 rD0) (View.ld x5 rE0) (View.ld x6 rE0) (View.ld x2 rB0)⟩]

theorem sound_kernel0 (c : Dev nD) (E : Set ℕ) (i : grid0.Coords) (arg1 : Memref sig .tc .vmem S20000x2 .f32) (harg1 : arg1.IsWhole) (arg2 : Memref sig .tc .vmem S20000x8 .f32) (harg2 : arg2.IsWhole) (arg3 : Memref sig .tc .vmem S20000x8 .f32) (harg3 : arg3.IsWhole) (arg4 : Memref sig .tc .vmem S2x32 .f32) (harg4 : arg4.IsWhole) (arg5 : Memref sig .tc .vmem S8x32 .f32) (harg5 : arg5.IsWhole) (arg6 : Memref sig .tc .vmem S32 .f32) (harg6 : arg6.IsWhole) (arg7 : Memref sig .tc .vmem S32 .f32) (harg7 : arg7.IsWhole) (arg8 : Memref sig .tc .vmem S20000x8 .f32) (harg8 : arg8.IsWhole) (arg9 : Memref sig .tc .vmem S20000x8 .f32) (harg9 : arg9.IsWhole)
    (x0 : Vec F S20000x2 .f32) (x1 : Vec F S20000x8 .f32) (x2 : Vec F S20000x8 .f32) (x3 : Vec F S2x32 .f32) (x4 : Vec F S8x32 .f32) (x5 : Vec F S32 .f32) (x6 : Vec F S32 .f32) (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)) :
    iprop(ins ∗ (∃ d, owns (c : Thread nD τ) arg8 fullShare d) ∗ (∃ d, owns (c : Thread nD τ) arg9 fullShare d)
        ∗ (iprop(ins ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__edge_lstm_kernel i arg1 harg1 arg2 harg2 arg3 harg3 arg4 harg4 arg5 harg5 arg6 harg6 arg7 harg7 arg8 harg8 arg9 harg9) K := by
  simp only [cc0__edge_lstm_kernel_eq_skeleton]; unfold cc0__edge_lstm_kernel_skel
  subst hins
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, Hk⟩
  subst hf0 hf1 hf2 hf3 hf4 hf5 hf6
  sl_exec
  sl_step
  iapply Hk
  isplitr [H7 H8]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    isplitl [H4]; · iexists f4; iframe; ipureintro; rfl
    isplitl [H5]; · iexists f5; iframe; ipureintro; rfl
    iexists f6; iframe; ipureintro; rfl
  isplitl [H7] <;>
    (iexists _; iframe; ipureintro; exact View.read_writes_eq_canon _ _ _ (View.cover_of_tiled [⟨rB0, _⟩] S20000x8.size (by rfl)))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

theorem before0 (c : Dev nD) (t : Fin cfg0.N) (w : Fin 9) (hw : w.val < 7) (d) : (dat0 V c).before w t d = (dat0 V c).after w t := by
  fin_cases w <;> first
    | exact absurd hw (by decide)
    | exact (dat0 V c).before_in_eq_fetched _ rfl (fun _ => rfl) (fun _ _ _ => rfl) (fun _ => rfl) t d

-- With the input blocks read off the arrays, the body's triple at a grid point is the obligation the launch theorem asks for.
theorem body_obligation0 (c : Dev nD) : BodyObligation (dat0 (F := F) V c) (defs₀ (F := F)) Variants.none () Set.univ := fun t => by
  rw [bigSep_W0, bigSep_W0]
  show _ ⊢ wp frame _ Set.univ (bodyAt0 t) _
  unfold bodyAt0
  simp (disch := decide) only [before0 V c t]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _ _ rfl)
  iframe H0 H1 H2 H3 H4 H5 H6
  isplitl [H7]; · iexists _; iexact H7
  isplitl [H8]; · iexists _; iexact H8
  iintro ⟨⟨H0, H1, H2, H3, H4, H5, H6⟩, H7, H8⟩
  iframe

end Region0

end Cert.Kernel.Fr
end
-- ==== Proof.K.Reg1.lean ====
import proofs.«421330_j44495861187264_1_alg».proof.Proof.Gen.Kernel.Launch
import proofs.«421330_j44495861187264_1_alg».proof.Proof.Gen.Kernel.Skeleton
import proofs.«421330_j44495861187264_1_alg».proof.Proof.Gen.Kernel.Points
import Idealize.ShloMosaic.Lib.Pipeline.FrameBody
import Idealize.ShloMosaic.Lib.Tactic

noncomputable section

namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x5 := Rect.unit (s := S10000x5) ![0, 0] S10000x5.size inb_S10000x5_S10000x5_0_0

abbrev r1_1 : Rect S10000x20 := Rect.unit (s := S10000x20) ![0, 0] S10000x20.size inb_S10000x20_S10000x20_0_0

abbrev r1_2 : Rect S5x80 := Rect.unit (s := S5x80) ![0, 0] S5x80.size inb_S5x80_S5x80_0_0

abbrev r1_3 : Rect S20x80 := Rect.unit (s := S20x80) ![0, 0] S20x80.size inb_S20x80_S20x80_0_0

abbrev r1_4 : Rect S80 := Rect.unit (s := S80) ![0] S80.size inb_S80_S80_0

def out1_7 (x0 : Vec F S10000x5 .f32) (x1 : Vec F S10000x20 .f32) (x2 : Vec F S10000x20 .f32) (x3 : Vec F S5x80 .f32) (x4 : Vec F S20x80 .f32) (x5 : Vec F S80 .f32) (x6 : Vec F S80 .f32) : Vec F S10000x20 .f32 :=
  View.canon [⟨r1_1, k1_pay3 (View.ld x0 r1_0) (View.ld x3 r1_2) (View.ld x1 r1_1) (View.ld x4 r1_3) (View.ld x5 r1_4) (View.ld x6 r1_4) (View.ld x2 r1_1)⟩]

def out1_8 (x0 : Vec F S10000x5 .f32) (x1 : Vec F S10000x20 .f32) (x2 : Vec F S10000x20 .f32) (x3 : Vec F S5x80 .f32) (x4 : Vec F S20x80 .f32) (x5 : Vec F S80 .f32) (x6 : Vec F S80 .f32) : Vec F S10000x20 .f32 :=
  View.canon [⟨r1_1, k1_pay2 (View.ld x0 r1_0) (View.ld x3 r1_2) (View.ld x1 r1_1) (View.ld x4 r1_3) (View.ld x5 r1_4) (View.ld x6 r1_4) (View.ld x2 r1_1)⟩]

theorem sound_kernel1 (c : Dev nD) (E : Set ℕ) (i : grid1.Coords) (arg1 : Memref sig .tc .vmem S10000x5 .f32) (harg1 : arg1.IsWhole) (arg2 : Memref sig .tc .vmem S10000x20 .f32) (harg2 : arg2.IsWhole) (arg3 : Memref sig .tc .vmem S10000x20 .f32) (harg3 : arg3.IsWhole) (arg4 : Memref sig .tc .vmem S5x80 .f32) (harg4 : arg4.IsWhole) (arg5 : Memref sig .tc .vmem S20x80 .f32) (harg5 : arg5.IsWhole) (arg6 : Memref sig .tc .vmem S80 .f32) (harg6 : arg6.IsWhole) (arg7 : Memref sig .tc .vmem S80 .f32) (harg7 : arg7.IsWhole) (arg8 : Memref sig .tc .vmem S10000x20 .f32) (harg8 : arg8.IsWhole) (arg9 : Memref sig .tc .vmem S10000x20 .f32) (harg9 : arg9.IsWhole)
    (x0 : Vec F S10000x5 .f32) (x1 : Vec F S10000x20 .f32) (x2 : Vec F S10000x20 .f32) (x3 : Vec F S5x80 .f32) (x4 : Vec F S20x80 .f32) (x5 : Vec F S80 .f32) (x6 : Vec F S80 .f32) (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)) :
    iprop(ins ∗ (∃ d, owns (c : Thread nD τ) arg8 fullShare d) ∗ (∃ d, owns (c : Thread nD τ) arg9 fullShare d)
        ∗ (iprop(ins ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__node_lstm_kernel i arg1 harg1 arg2 harg2 arg3 harg3 arg4 harg4 arg5 harg5 arg6 harg6 arg7 harg7 arg8 harg8 arg9 harg9) K := by
  simp only [cc1__node_lstm_kernel_eq_skeleton]; unfold cc1__node_lstm_kernel_skel
  subst hins
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, Hk⟩
  subst hf0 hf1 hf2 hf3 hf4 hf5 hf6
  sl_exec
  sl_step
  iapply Hk
  isplitr [H7 H8]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    isplitl [H4]; · iexists f4; iframe; ipureintro; rfl
    isplitl [H5]; · iexists f5; iframe; ipureintro; rfl
    iexists f6; iframe; ipureintro; rfl
  isplitl [H7] <;>
    (iexists _; iframe; ipureintro; exact View.read_writes_eq_canon _ _ _ (View.cover_of_tiled [⟨r1_1, _⟩] S10000x20.size (by rfl)))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

theorem before1 (c : Dev nD) (t : Fin cfg1.N) (w : Fin 9) (hw : w.val < 7) (d) : (dat1 V c).before w t d = (dat1 V c).after w t := by
  fin_cases w <;> first
    | exact absurd hw (by decide)
    | exact (dat1 V c).before_in_eq_fetched _ rfl (fun _ => rfl) (fun _ _ _ => rfl) (fun _ => rfl) t d

-- With the input blocks read off the arrays, the body's triple at a grid point is the obligation the launch theorem asks for.
theorem body_obligation1 (c : Dev nD) : BodyObligation (dat1 (F := F) V c) (defs₀ (F := F)) Variants.none () Set.univ := fun t => by
  rw [bigSep_W1, bigSep_W1]
  show _ ⊢ wp frame _ Set.univ (bodyAt1 t) _
  unfold bodyAt1
  simp (disch := decide) only [before1 V c t]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _ _ rfl)
  iframe H0 H1 H2 H3 H4 H5 H6
  isplitl [H7]; · iexists _; iexact H7
  isplitl [H8]; · iexists _; iexact H8
  iintro ⟨⟨H0, H1, H2, H3, H4, H5, H6⟩, H7, H8⟩
  iframe

end Region1

end Cert.Kernel.Fr
end
-- ==== Proof.K.Reg2.lean ====
import proofs.«421330_j44495861187264_1_alg».proof.Proof.Gen.Kernel.Launch
import proofs.«421330_j44495861187264_1_alg».proof.Proof.Gen.Kernel.Skeleton
import proofs.«421330_j44495861187264_1_alg».proof.Proof.Gen.Kernel.Points
import Idealize.ShloMosaic.Lib.Pipeline.FrameBody
import Idealize.ShloMosaic.Lib.Tactic

noncomputable section

namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S20000x58 := Rect.unit (s := S20000x58) ![0, 0] S20000x58.size inb_S20000x58_S20000x58_0_0

abbrev r2_1 : Rect S58x64 := Rect.unit (s := S58x64) ![0, 0] S58x64.size inb_S58x64_S58x64_0_0

abbrev r2_2 : Rect S64 := Rect.unit (s := S64) ![0] S64.size inb_S64_S64_0

abbrev r2_3 : Rect S64x32 := Rect.unit (s := S64x32) ![0, 0] S64x32.size inb_S64x32_S64x32_0_0

abbrev r2_4 : Rect S32 := Rect.unit (s := S32) ![0] S32.size inb_S32_S32_0

abbrev r2_5 : Rect S20000x32 := Rect.unit (s := S20000x32) ![0, 0] S20000x32.size inb_S20000x32_S20000x32_0_0

def out2_5 (x0 : Vec F S20000x58 .f32) (x1 : Vec F S58x64 .f32) (x2 : Vec F S64 .f32) (x3 : Vec F S64x32 .f32) (x4 : Vec F S32 .f32) :
    Vec F S20000x32 .f32 :=
  View.canon [⟨r2_5, k2_pay1 (View.ld x0 r2_0) (View.ld x1 r2_1) (View.ld x2 r2_2) (View.ld x3 r2_3) (View.ld x4 r2_4)⟩]

theorem sound_kernel2 (c : Dev nD) (E : Set ℕ) (i : grid2.Coords)
    (arg1 : Memref sig .tc .vmem S20000x58 .f32) (harg1 : arg1.IsWhole) (arg2 : Memref sig .tc .vmem S58x64 .f32) (harg2 : arg2.IsWhole)
    (arg3 : Memref sig .tc .vmem S64 .f32) (harg3 : arg3.IsWhole) (arg4 : Memref sig .tc .vmem S64x32 .f32) (harg4 : arg4.IsWhole)
    (arg5 : Memref sig .tc .vmem S32 .f32) (harg5 : arg5.IsWhole) (arg6 : Memref sig .tc .vmem S20000x32 .f32) (harg6 : arg6.IsWhole)
    (x0 : Vec F S20000x58 .f32) (x1 : Vec F S58x64 .f32) (x2 : Vec F S64 .f32) (x3 : Vec F S64x32 .f32) (x4 : Vec F S32 .f32)
    (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4)) :
    iprop(ins ∗ (∃ d, owns (c : Thread nD τ) arg6 fullShare d)
        ∗ (iprop(ins ∗ owns (c : Thread nD τ) arg6 fullShare (out2_5 x0 x1 x2 x3 x4)) -∗ K ⟨⟩))
      ⊢ wp frame (wpE (defs₀ (F := F)) Variants.none c none) E (cc2__edge_mlp_kernel i arg1 harg1 arg2 harg2 arg3 harg3 arg4 harg4 arg5 harg5 arg6 harg6) K := by
  simp only [cc2__edge_mlp_kernel_eq_skeleton]; unfold cc2__edge_mlp_kernel_skel
  subst hins
  unfold owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, Hk⟩
  subst hf0 hf1 hf2 hf3 hf4
  sl_exec
  sl_step
  iapply Hk
  isplitr [H5]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    iexists f4; iframe; ipureintro; rfl
  iexists _; iframe; ipureintro
  exact View.read_writes_eq_canon _ _ _ (View.cover_of_tiled [⟨r2_5, _⟩] S20000x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) (w : Fin 6) (hw : w.val < 5) (d) : (dat2 V c).before w t d = (dat2 V c).after w t := by
  fin_cases w <;> first
    | exact absurd hw (by decide)
    | exact (dat2 V c).before_in_eq_fetched _ rfl (fun _ => rfl) (fun _ _ _ => rfl) (fun _ => rfl) t d

-- With the input blocks read off the arrays, the body's triple at a grid point is the obligation the launch theorem asks for.
theorem body_obligation2 (c : Dev nD) : BodyObligation (dat2 (F := F) V c) (defs₀ (F := F)) Variants.none () Set.univ := fun t => by
  rw [bigSep_W2, bigSep_W2]
  show _ ⊢ wp frame _ Set.univ (bodyAt2 t) _
  unfold bodyAt2
  simp (disch := decide) only [before2 V c t]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _ _ rfl)
  iframe H0 H1 H2 H3 H4
  isplitl [H5]; · iexists _; iexact H5
  iintro ⟨⟨H0, H1, H2, H3, H4⟩, H5⟩
  iframe
end

end Cert.Kernel.Fr
end
-- ==== Proof.K.Reg3.lean ====
import proofs.«421330_j44495861187264_1_alg».proof.Proof.Gen.Kernel.Launch
import proofs.«421330_j44495861187264_1_alg».proof.Proof.Gen.Kernel.Skeleton
import proofs.«421330_j44495861187264_1_alg».proof.Proof.Gen.Kernel.Points
import Idealize.ShloMosaic.Lib.Pipeline.FrameBody
import Idealize.ShloMosaic.Lib.Tactic

noncomputable section

namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x28 := Rect.unit (s := S10000x28) ![0, 0] S10000x28.size inb_S10000x28_S10000x28_0_0

abbrev r3_1 : Rect S10000x32 := Rect.unit (s := S10000x32) ![0, 0] S10000x32.size inb_S10000x32_S10000x32_0_0

abbrev r3_2 : Rect S60x64 := Rect.unit (s := S60x64) ![0, 0] S60x64.size inb_S60x64_S60x64_0_0

abbrev r3_3 : Rect S64 := Rect.unit (s := S64) ![0] S64.size inb_S64_S64_0

abbrev r3_4 : Rect S64x64 := Rect.unit (s := S64x64) ![0, 0] S64x64.size inb_S64x64_S64x64_0_0

abbrev r3_5 : Rect S64x4 := Rect.unit (s := S64x4) ![0, 0] S64x4.size inb_S64x4_S64x4_0_0

abbrev r3_6 : Rect S4 := Rect.unit (s := S4) ![0] S4.size inb_S4_S4_0

abbrev r3_7 : Rect S10000x1 := Rect.unit (s := S10000x1) ![0, 0] S10000x1.size inb_S10000x1_S10000x1_0_0

abbrev r3_8 : Rect S10000x4 := Rect.unit (s := S10000x4) ![0, 0] S10000x4.size inb_S10000x4_S10000x4_0_0

def out3_9 (x0 : Vec F S10000x28 .f32) (x1 : Vec F S10000x32 .f32) (x2 : Vec F S10000x1 .f32) (x3 : Vec F S60x64 .f32) (x4 : Vec F S64 .f32) (x5 : Vec F S64x64 .f32) (x6 : Vec F S64 .f32) (x7 : Vec F S64x4 .f32) (x8 : Vec F S4 .f32) : Vec F S10000x4 .f32 :=
  View.canon [⟨r3_8, k3_pay1 (k3_pay2 (View.ld x0 r3_0) (View.ld x1 r3_1) (View.ld x3 r3_2) (View.ld x4 r3_3) (View.ld x5 r3_4) (View.ld x6 r3_3) (View.ld x7 r3_5) (View.ld x8 r3_6)) (View.ld x2 r3_7)⟩]

theorem sound_kernel3 (c : Dev nD) (E : Set ℕ) (i : grid3.Coords) (arg1 : Memref sig .tc .vmem S10000x28 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S60x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x4 .f32) (harg8 : arg8.IsWhole) (arg9 : Memref sig .tc .vmem S4 .f32) (harg9 : arg9.IsWhole) (arg10 : Memref sig .tc .vmem S10000x4 .f32) (harg10 : arg10.IsWhole)
    (x0 : Vec F S10000x28 .f32) (x1 : Vec F S10000x32 .f32) (x2 : Vec F S10000x1 .f32) (x3 : Vec F S60x64 .f32) (x4 : Vec F S64 .f32) (x5 : Vec F S64x64 .f32) (x6 : Vec F S64 .f32) (x7 : Vec F S64x4 .f32) (x8 : Vec F S4 .f32) (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)) :
    iprop(ins ∗ (∃ d, owns (c : Thread nD τ) arg10 fullShare d)
        ∗ (iprop(ins ∗ owns (c : Thread nD τ) arg10 fullShare (out3_9 x0 x1 x2 x3 x4 x5 x6 x7 x8)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8 arg9 harg9 arg10 harg10) K := by
  simp only [cc3__node_mlp_kernel_eq_skeleton]; unfold cc3__node_mlp_kernel_skel
  simp only [k3_part1_eq_skeleton]; unfold k3_part1_skel
  subst hins
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, Hk⟩
  subst hf0 hf1 hf2 hf3 hf4 hf5 hf6 hf7 hf8
  sl_exec
  sl_step
  iapply Hk
  isplitr [H9]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    isplitl [H4]; · iexists f4; iframe; ipureintro; rfl
    isplitl [H5]; · iexists f5; iframe; ipureintro; rfl
    isplitl [H6]; · iexists f6; iframe; ipureintro; rfl
    isplitl [H7]; · iexists f7; iframe; ipureintro; rfl
    iexists f8; iframe; ipureintro; rfl
  iexists _; iframe; ipureintro
  exact View.read_writes_eq_canon _ _ _ (View.cover_of_tiled [⟨r3_8, _⟩] S10000x4.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3 (c : Dev nD) (t : Fin cfg3.N) (w : Fin 10) (hw : w.val < 9) (d) : (dat3 V c).before w t d = (dat3 V c).after w t := by
  fin_cases w <;> first
    | exact absurd hw (by decide)
    | exact (dat3 V c).before_in_eq_fetched _ rfl (fun _ => rfl) (fun _ _ _ => rfl) (fun _ => rfl) t d

-- With the input blocks read off the arrays, the body's triple at a grid point is the obligation the launch theorem asks for.
theorem body_obligation3 (c : Dev nD) : BodyObligation (dat3 (F := F) V c) (defs₀ (F := F)) Variants.none () Set.univ := fun t => by
  rw [bigSep_W3, bigSep_W3]
  show _ ⊢ wp frame _ Set.univ (bodyAt3 t) _
  unfold bodyAt3
  simp (disch := decide) only [before3 V c t]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _ _ rfl)
  iframe H0 H1 H2 H3 H4 H5 H6 H7 H8
  isplitl [H9]; · iexists _; iexact H9
  iintro ⟨⟨H0, H1, H2, H3, H4, H5, H6, H7, H8⟩, H9⟩
  iframe

end Region3

end Cert.Kernel.Fr
end
-- ==== Proof.K.Run.lean ====
import proofs.«421330_j44495861187264_1_alg».proof.Proof.K.Reg0
import proofs.«421330_j44495861187264_1_alg».proof.Proof.K.Reg1
import proofs.«421330_j44495861187264_1_alg».proof.Proof.K.Reg2
import proofs.«421330_j44495861187264_1_alg».proof.Proof.K.Reg3
import proofs.«421330_j44495861187264_1_alg».proof.Proof.Gen.Kernel.Regions
import Idealize.ShloMosaic.Lib.Pipeline.FrameSuffix
import Idealize.ShloMosaic.Lib.Pipeline.RegionsLoop

noncomputable section

namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wk0 : Dev nD → Valuation τ sig (Elt F) := fun c b => (s₀ m ρ).mem ((c : Dev nD), b)

abbrev Wk1 : Dev nD → Valuation τ sig (Elt F) := fun c => StableHlo.after hostOps0 (Wk0 m ρ c)

abbrev Ak1 : (c : Dev nD) → (b : Ref sig .tc) → Buf (Elt F) ((c : Thread nD τ).loc b) := fun c b => Wk1 m ρ c b

def Wk2 (c : Dev nD) : Valuation τ sig (Elt F) :=
  Pipeline.withArrays spec0 c (Wk1 m ρ c) fun w => (dat0 (Ak1 m ρ) c).arrAt w cfg0.N

theorem Wk2_arr (c : Dev nD) (w : Fin cfg0.W) :
    Wk2 m ρ c (Proc.devRef .tc (Pipeline.arrRef spec0 w)) = (dat0 (Ak1 m ρ) c).arrAt w cfg0.N := by
  unfold Wk2; exact Pipeline.withArrays_arr spec0 launch0.win.arr_inj c _ _ w

theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb

abbrev Wk3 : Dev nD → Valuation τ sig (Elt F) := fun c => StableHlo.after hostOps1 (Wk2 m ρ c)

abbrev Ak3 : (c : Dev nD) → (b : Ref sig .tc) → Buf (Elt F) ((c : Thread nD τ).loc b) := fun c b => Wk3 m ρ c b

def Wk4 (c : Dev nD) : Valuation τ sig (Elt F) :=
  Pipeline.withArrays spec1 c (Wk3 m ρ c) fun w => (dat1 (Ak3 m ρ) c).arrAt w cfg1.N

theorem Wk4_arr (c : Dev nD) (w : Fin cfg1.W) :
    Wk4 m ρ c (Proc.devRef .tc (Pipeline.arrRef spec1 w)) = (dat1 (Ak3 m ρ) c).arrAt w cfg1.N := by
  unfold Wk4; exact Pipeline.withArrays_arr spec1 launch1.win.arr_inj c _ _ w

theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb

abbrev Wk5 : Dev nD → Valuation τ sig (Elt F) := fun c => StableHlo.after hostOps2 (Wk4 m ρ c)

abbrev Ak5 : (c : Dev nD) → (b : Ref sig .tc) → Buf (Elt F) ((c : Thread nD τ).loc b) := fun c b => Wk5 m ρ c b

def Wk6 (c : Dev nD) : Valuation τ sig (Elt F) :=
  Pipeline.withArrays spec2 c (Wk5 m ρ c) fun w => (dat2 (Ak5 m ρ) c).arrAt w cfg2.N

theorem Wk6_arr (c : Dev nD) (w : Fin cfg2.W) :
    Wk6 m ρ c (Proc.devRef .tc (Pipeline.arrRef spec2 w)) = (dat2 (Ak5 m ρ) c).arrAt w cfg2.N := by
  unfold Wk6; exact Pipeline.withArrays_arr spec2 launch2.win.arr_inj c _ _ w

theorem Wk6_of_ne (c : Dev nD) (b : Ref sig .tc) (hb : ∀ w, Pipeline.arrRef spec2 w ≠ b) :
    Wk6 m ρ c (Proc.devRef .tc b) = Wk5 m ρ c (Proc.devRef .tc b) := by
  unfold Wk6; exact Pipeline.withArrays_of_ne spec2 c _ _ b hb

abbrev Wk7 : Dev nD → Valuation τ sig (Elt F) := fun c => StableHlo.after hostOps3 (Wk6 m ρ c)

abbrev Ak7 : (c : Dev nD) → (b : Ref sig .tc) → Buf (Elt F) ((c : Thread nD τ).loc b) := fun c b => Wk7 m ρ c b

def Wk8 (c : Dev nD) : Valuation τ sig (Elt F) :=
  Pipeline.withArrays spec3 c (Wk7 m ρ c) fun w => (dat3 (Ak7 m ρ) c).arrAt w cfg3.N

theorem Wk8_arr (c : Dev nD) (w : Fin cfg3.W) :
    Wk8 m ρ c (Proc.devRef .tc (Pipeline.arrRef spec3 w)) = (dat3 (Ak7 m ρ) c).arrAt w cfg3.N := by
  unfold Wk8; exact Pipeline.withArrays_arr spec3 launch3.win.arr_inj c _ _ w

theorem Wk8_of_ne (c : Dev nD) (b : Ref sig .tc) (hb : ∀ w, Pipeline.arrRef spec3 w ≠ b) :
    Wk8 m ρ c (Proc.devRef .tc b) = Wk7 m ρ c (Proc.devRef .tc b) := by
  unfold Wk8; exact Pipeline.withArrays_of_ne spec3 c _ _ b hb

abbrev Wk9 : Dev nD → Valuation τ sig (Elt F) := fun c => StableHlo.after hostOps4 (Wk8 m ρ c)

abbrev adm' : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm' p) c
  | ⟨0, _⟩ => fun c => dat0 (Ak1 m ρ) c
  | ⟨1, _⟩ => fun c => dat1 (Ak3 m ρ) c
  | ⟨2, _⟩ => fun c => dat2 (Ak5 m ρ) c
  | ⟨3, _⟩ => fun c => dat3 (Ak7 m ρ) c

abbrev 𝒱' : Variants := Variants.none

abbrev L' : GSem nD τ sig → Finset Unit := fun _ => ∅

abbrev lv' : GSem nD τ sig → Unit → ℕ := fun _ _ => 0

abbrev Rest (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (Wk9 m ρ c) ∗ ∃ r, prngReg c r)

-- One kernel region as an item of @main: it takes the buffers from `W` to `W'`, which differs from `W` only at the region's arrays.
set_option backward.isDefEq.respectTransparency.types false in
def regOf (p : Fin 4) (lf : Pipeline.LaunchFacts (nD := nD) (τ := τ) cfgs p) (W W' : Dev nD → Valuation τ sig (Elt F))
    (hbody : ∀ c, BodyObligation (pdats m ρ p c) (defs₀ (F := F)) 𝒱' () Set.univ)
    (hF : ∀ c w, W' c (Proc.devRef .tc (Pipeline.arrRef (cfgs p).spec w)) = (pdats m ρ p c).arrAt w (cfgs p).N)
    (hne : ∀ c (b : Ref sig .tc), (∀ w, Pipeline.arrRef (cfgs p).spec w ≠ b) → W' c (Proc.devRef .tc b) = W c (Proc.devRef .tc b))
    (hq : ∀ c w, (pdats m ρ p c).share w = fullShare := by exact fun _ => Pipeline.Dat.share_full _ fun _ => rfl)
    (hA : ∀ c w, (pdats m ρ p c).A w = W c (Pipeline.arrRef (cfgs p).spec w) := by exact fun _ _ => rfl)
    (hΦ : ∀ c j, (pdats m ρ p c).Φ j = Pipeline.ΦA (cfgs p).spec c := by exact fun _ _ => rfl)
    (h0 : ∀ c w, (pdats m ρ p c).owed w = 0 := by exact fun _ _ => rfl)
    (hrec : ∀ c j, (pdats m ρ p c).recorded j = Set.univ := by exact fun _ _ => rfl) :
    Pipeline.RegionSeg (pcfgs (F := F)) adm' (pdats m ρ) () defs₀ 𝒱' L' lv' p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L' lv' p h0
  pre c := iprop(StableHlo.held (c : Thread nD τ) (Pipeline.ucRefs τ sig) (W c) ∗ Rest c)
  post c := iprop(StableHlo.held (c : Thread nD τ) (Pipeline.ucRefs τ sig) (W' c) ∗ Rest c)
  X c := iprop(∃ r, prngReg c r)
  Y c := iprop(∃ r, prngReg c r)
  Z c := Pipeline.unscopedRest (cfgs p).spec c (fun b => W c b)
  hentry c := by
    rw [Pipeline.ownSems0_none]
    have hsplit := Pipeline.arrays_of_unscopedBufs (p := p) (pcfgs (F := F)) adm' (pdats m ρ) lf.win lf.arr_whole c
      (hq c) (fun b => W c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [h0]
    icases HO with ⟨%W, HO⟩; iexists W; isplitr; · ipureintro; exact fun _ _ => Or.inl (by rw [hrec]; trivial)
    iexact HO
  hin c := by
    rw [hΦ]; unfold Pipeline.ΦA
    iintro ⟨Hp, -, Hr⟩; iframe
  hout c := by
    rw [Pipeline.ownSems0_none, hΦ]; unfold Pipeline.ΦA
    iintro ⟨Hr, Hp⟩; iframe; iempintro
  hexit c := by
    have hjoin := Pipeline.unscopedBufs_of_arrays (p := p) (pcfgs (F := F)) adm'
      lf.win lf.arr_whole c (pdats m ρ) (hq c)
      (fun b => W c b) (fun b => W' c b) ((pdats m ρ p c).arrAt · (cfgs p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [h0]
    icases HO with ⟨%W, -, HO⟩; iexists W; iexact HO

def reg0 := regOf m ρ 0 launch0 (Wk1 m ρ) (Wk2 m ρ) (body_obligation0 (Ak1 m ρ)) (Wk2_arr m ρ) (Wk2_of_ne m ρ)

def reg1 := regOf m ρ 1 launch1 (Wk3 m ρ) (Wk4 m ρ) (body_obligation1 (Ak3 m ρ)) (Wk4_arr m ρ) (Wk4_of_ne m ρ)

def reg2 := regOf m ρ 2 launch2 (Wk5 m ρ) (Wk6 m ρ) (body_obligation2 (Ak5 m ρ)) (Wk6_arr m ρ) (Wk6_of_ne m ρ)

def reg3 := regOf m ρ 3 launch3 (Wk7 m ρ) (Wk8 m ρ) (body_obligation3 (Ak7 m ρ)) (Wk8_arr m ρ) (Wk8_of_ne m ρ)

abbrev segs' : List (Pipeline.Seg (pcfgs (F := F)) adm' (pdats m ρ) () defs₀ 𝒱' L' lv') :=
  [ .host (hseg hostOps0 hostOps0_sub hostOps0_fresh (Wk0 m ρ)),
    .region (reg0 m ρ),
    .host (hseg hostOps1 hostOps1_sub hostOps1_fresh (Wk2 m ρ)),
    .region (reg1 m ρ),
    .host (hseg hostOps2 hostOps2_sub hostOps2_fresh (Wk4 m ρ)),
    .region (reg2 m ρ),
    .host (hseg hostOps3 hostOps3_sub hostOps3_fresh (Wk6 m ρ)),
    .region (reg3 m ρ),
    .host (hseg hostOps4 hostOps4_sub hostOps4_fresh (Wk8 m ρ)) ]

theorem main_run (c : Dev nD) : main (F := F) c = Pipeline.Seg.run (segs' m ρ) := (main_chain c).trans (by chain_rfl)

set_option backward.isDefEq.respectTransparency.types false in
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wk9 m ρ c (Proc.devRef .tc b)) :=
  Pipeline.θ_run_regions_kit (pcfgs (F := F)) adm' (pdats m ρ) () cellOf_inj emb₁ defs₀ 𝒱' L' lv' m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ Rest c)) (Tₙ := Tlast m ρ)
    (hch := ⟨fun _ => .rfl, fun _ => .rfl, fun _ => .rfl, fun _ => .rfl, fun _ => .rfl, fun _ => .rfl, fun _ => .rfl, fun _ => .rfl, fun _ => .rfl,
      fun _ => Laws.sep_assoc.2⟩)
    (hinit := by
      refine Pipeline.initEach L' lv' fun c => ?_
      rw [Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk9 m ρ c) s')
      isplitl [Hh] <;> iassumption)
    (hQ := fun s h c b hb => h c _ (mem_uc b hb))
end Cert.Kernel.Fr
end
-- ==== Proof.K.Keep.lean ====
import proofs.«421330_j44495861187264_1_alg».proof.Proof.K.Run

noncomputable section

namespace Cert.Kernel.Fr

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD) (r : Ref sig .tc)

theorem Wk1_keep (h : r ∉ hostOps0_W := by decide) : Wk1 m ρ c (Proc.devRef .tc r) = Wk0 m ρ c (Proc.devRef .tc r) :=
  StableHlo.after_of_writes_sub hostOps0 _ hostOps0_writes h

theorem Wk3_keep (h : r ∉ hostOps1_W := by decide) : Wk3 m ρ c (Proc.devRef .tc r) = Wk2 m ρ c (Proc.devRef .tc r) :=
  StableHlo.after_of_writes_sub hostOps1 _ hostOps1_writes h

theorem Wk5_keep (h : r ∉ hostOps2_W := by decide) : Wk5 m ρ c (Proc.devRef .tc r) = Wk4 m ρ c (Proc.devRef .tc r) :=
  StableHlo.after_of_writes_sub hostOps2 _ hostOps2_writes h

theorem Wk7_keep (h : r ∉ hostOps3_W := by decide) : Wk7 m ρ c (Proc.devRef .tc r) = Wk6 m ρ c (Proc.devRef .tc r) :=
  StableHlo.after_of_writes_sub hostOps3 _ hostOps3_writes h

theorem Wk9_keep (h : r ∉ hostOps4_W := by decide) : Wk9 m ρ c (Proc.devRef .tc r) = Wk8 m ρ c (Proc.devRef .tc r) :=
  StableHlo.after_of_writes_sub hostOps4 _ hostOps4_writes h

-- A region changes no array but those of its output windows: an input window's array ends as it was found.
theorem Wk2_keep (h : ∀ w, Pipeline.arrRef spec0 w = r → (cfg0.win w).isOut = false := by decide) :
    Wk2 m ρ c (Proc.devRef .tc r) = Wk1 m ρ c (Proc.devRef .tc r) := by
  by_cases hw : ∃ w, Pipeline.arrRef spec0 w = r
  · obtain ⟨w, rfl⟩ := hw
    exact (Wk2_arr m ρ c w).trans (((dat0 (Ak1 m ρ) c).arrAt_in w (h w rfl) _).trans (A_eq0 (Ak1 m ρ) c w))
  · exact Wk2_of_ne m ρ c r fun w e => hw ⟨w, e⟩

theorem Wk4_keep (h : ∀ w, Pipeline.arrRef spec1 w = r → (cfg1.win w).isOut = false := by decide) :
    Wk4 m ρ c (Proc.devRef .tc r) = Wk3 m ρ c (Proc.devRef .tc r) := by
  by_cases hw : ∃ w, Pipeline.arrRef spec1 w = r
  · obtain ⟨w, rfl⟩ := hw
    exact (Wk4_arr m ρ c w).trans (((dat1 (Ak3 m ρ) c).arrAt_in w (h w rfl) _).trans (A_eq1 (Ak3 m ρ) c w))
  · exact Wk4_of_ne m ρ c r fun w e => hw ⟨w, e⟩

theorem Wk6_keep (h : ∀ w, Pipeline.arrRef spec2 w = r → (cfg2.win w).isOut = false := by decide) :
    Wk6 m ρ c (Proc.devRef .tc r) = Wk5 m ρ c (Proc.devRef .tc r) := by
  by_cases hw : ∃ w, Pipeline.arrRef spec2 w = r
  · obtain ⟨w, rfl⟩ := hw
    exact (Wk6_arr m ρ c w).trans (((dat2 (Ak5 m ρ) c).arrAt_in w (h w rfl) _).trans (A_eq2 (Ak5 m ρ) c w))
  · exact Wk6_of_ne m ρ c r fun w e => hw ⟨w, e⟩

theorem Wk8_keep (h : ∀ w, Pipeline.arrRef spec3 w = r → (cfg3.win w).isOut = false := by decide) :
    Wk8 m ρ c (Proc.devRef .tc r) = Wk7 m ρ c (Proc.devRef .tc r) := by
  by_cases hw : ∃ w, Pipeline.arrRef spec3 w = r
  · obtain ⟨w, rfl⟩ := hw
    exact (Wk8_arr m ρ c w).trans (((dat3 (Ak7 m ρ) c).arrAt_in w (h w rfl) _).trans (A_eq3 (Ak7 m ρ) c w))
  · exact Wk8_of_ne m ρ c r fun w e => hw ⟨w, e⟩

-- A buffer that no host stretch writes and that is no region's output ends as launched.
theorem Wk9_of_untouched (h0 : r ∉ hostOps0_W := by decide) (h1 : r ∉ hostOps1_W := by decide) (h2 : r ∉ hostOps2_W := by decide)
    (h3 : r ∉ hostOps3_W := by decide) (h4 : r ∉ hostOps4_W := by decide)
    (ha : ∀ w, Pipeline.arrRef spec0 w = r → (cfg0.win w).isOut = false := by decide)
    (hb : ∀ w, Pipeline.arrRef spec1 w = r → (cfg1.win w).isOut = false := by decide)
    (hc : ∀ w, Pipeline.arrRef spec2 w = r → (cfg2.win w).isOut = false := by decide)
    (hd : ∀ w, Pipeline.arrRef spec3 w = r → (cfg3.win w).isOut = false := by decide) :
    Wk9 m ρ c (Proc.devRef .tc r) = m ((c.tc : Thread nD τ).loc r) :=
  (Wk9_keep m ρ c r h4).trans <| (Wk8_keep m ρ c r hd).trans <| (Wk7_keep m ρ c r h3).trans <| (Wk6_keep m ρ c r hc).trans <|
    (Wk5_keep m ρ c r h2).trans <| (Wk4_keep m ρ c r hb).trans <| (Wk3_keep m ρ c r h1).trans <|
    (Wk2_keep m ρ c r ha).trans <| (Wk1_keep m ρ c r h0)

end Cert.Kernel.Fr

end
-- ==== Proof.KI.Reg0.lean ====
import proofs.«421330_j44495861187264_1_alg».proof.Proof.Gen.KernelIdeal.Launch
import proofs.«421330_j44495861187264_1_alg».proof.Proof.Gen.KernelIdeal.Skeleton
import proofs.«421330_j44495861187264_1_alg».proof.Proof.Gen.KernelIdeal.Points
import Idealize.ShloMosaic.Lib.Pipeline.FrameBody
import Idealize.ShloMosaic.Lib.Tactic

noncomputable section

namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S20000x2 := Rect.unit (s := S20000x2) ![0, 0] S20000x2.size inb_S20000x2_S20000x2_0_0

abbrev rB0 : Rect S20000x8 := Rect.unit (s := S20000x8) ![0, 0] S20000x8.size inb_S20000x8_S20000x8_0_0

abbrev rC0 : Rect S2x32 := Rect.unit (s := S2x32) ![0, 0] S2x32.size inb_S2x32_S2x32_0_0

abbrev rD0 : Rect S8x32 := Rect.unit (s := S8x32) ![0, 0] S8x32.size inb_S8x32_S8x32_0_0

abbrev rE0 : Rect S32 := Rect.unit (s := S32) ![0] S32.size inb_S32_S32_0

def out0_7 (x0 : Vec F S20000x2 .f32) (x1 : Vec F S20000x8 .f32) (x2 : Vec F S20000x8 .f32) (x3 : Vec F S2x32 .f32) (x4 : Vec F S8x32 .f32) (x5 : Vec F S32 .f32) (x6 : Vec F S32 .f32) : Vec F S20000x8 .f32 :=
  View.canon [⟨rB0, k0_pay3 (View.ld x0 rA0) (View.ld x3 rC0) (View.ld x1 rB0) (View.ld x4 rD0) (View.ld x5 rE0) (View.ld x6 rE0) (View.ld x2 rB0)⟩]

def out0_8 (x0 : Vec F S20000x2 .f32) (x1 : Vec F S20000x8 .f32) (x2 : Vec F S20000x8 .f32) (x3 : Vec F S2x32 .f32) (x4 : Vec F S8x32 .f32) (x5 : Vec F S32 .f32) (x6 : Vec F S32 .f32) : Vec F S20000x8 .f32 :=
  View.canon [⟨rB0, k0_pay2 (View.ld x0 rA0) (View.ld x3 rC0) (View.ld x1 rB0) (View.ld x4 rD0) (View.ld x5 rE0) (View.ld x6 rE0) (View.ld x2 rB0)⟩]

theorem sound_kernel0 (c : Dev nD) (E : Set ℕ) (i : grid0.Coords) (arg1 : Memref sig .tc .vmem S20000x2 .f32) (harg1 : arg1.IsWhole) (arg2 : Memref sig .tc .vmem S20000x8 .f32) (harg2 : arg2.IsWhole) (arg3 : Memref sig .tc .vmem S20000x8 .f32) (harg3 : arg3.IsWhole) (arg4 : Memref sig .tc .vmem S2x32 .f32) (harg4 : arg4.IsWhole) (arg5 : Memref sig .tc .vmem S8x32 .f32) (harg5 : arg5.IsWhole) (arg6 : Memref sig .tc .vmem S32 .f32) (harg6 : arg6.IsWhole) (arg7 : Memref sig .tc .vmem S32 .f32) (harg7 : arg7.IsWhole) (arg8 : Memref sig .tc .vmem S20000x8 .f32) (harg8 : arg8.IsWhole) (arg9 : Memref sig .tc .vmem S20000x8 .f32) (harg9 : arg9.IsWhole)
    (x0 : Vec F S20000x2 .f32) (x1 : Vec F S20000x8 .f32) (x2 : Vec F S20000x8 .f32) (x3 : Vec F S2x32 .f32) (x4 : Vec F S8x32 .f32) (x5 : Vec F S32 .f32) (x6 : Vec F S32 .f32) (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)) :
    iprop(ins ∗ (∃ d, owns (c : Thread nD τ) arg8 fullShare d) ∗ (∃ d, owns (c : Thread nD τ) arg9 fullShare d)
        ∗ (iprop(ins ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__edge_lstm_kernel i arg1 harg1 arg2 harg2 arg3 harg3 arg4 harg4 arg5 harg5 arg6 harg6 arg7 harg7 arg8 harg8 arg9 harg9) K := by
  simp only [cc0__edge_lstm_kernel_eq_skeleton]; unfold cc0__edge_lstm_kernel_skel
  subst hins
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, Hk⟩
  subst hf0 hf1 hf2 hf3 hf4 hf5 hf6
  sl_exec
  sl_step
  iapply Hk
  isplitr [H7 H8]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    isplitl [H4]; · iexists f4; iframe; ipureintro; rfl
    isplitl [H5]; · iexists f5; iframe; ipureintro; rfl
    iexists f6; iframe; ipureintro; rfl
  isplitl [H7] <;>
    (iexists _; iframe; ipureintro; exact View.read_writes_eq_canon _ _ _ (View.cover_of_tiled [⟨rB0, _⟩] S20000x8.size (by rfl)))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

theorem before0 (c : Dev nD) (t : Fin cfg0.N) (w : Fin 9) (hw : w.val < 7) (d) : (dat0 V c).before w t d = (dat0 V c).after w t := by
  fin_cases w <;> first
    | exact absurd hw (by decide)
    | exact (dat0 V c).before_in_eq_fetched _ rfl (fun _ => rfl) (fun _ _ _ => rfl) (fun _ => rfl) t d

-- With the input blocks read off the arrays, the body's triple at a grid point is the obligation the launch theorem asks for.
theorem body_obligation0 (c : Dev nD) : BodyObligation (dat0 (F := F) V c) (defs₀ (F := F)) Variants.none () Set.univ := fun t => by
  rw [bigSep_W0, bigSep_W0]
  show _ ⊢ wp frame _ Set.univ (bodyAt0 t) _
  unfold bodyAt0
  simp (disch := decide) only [before0 V c t]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _ _ rfl)
  iframe H0 H1 H2 H3 H4 H5 H6
  isplitl [H7]; · iexists _; iexact H7
  isplitl [H8]; · iexists _; iexact H8
  iintro ⟨⟨H0, H1, H2, H3, H4, H5, H6⟩, H7, H8⟩
  iframe

end Region0

end Cert.KernelIdeal.Fr
end
-- ==== Proof.KI.Reg1.lean ====
import proofs.«421330_j44495861187264_1_alg».proof.Proof.Gen.KernelIdeal.Launch
import proofs.«421330_j44495861187264_1_alg».proof.Proof.Gen.KernelIdeal.Skeleton
import proofs.«421330_j44495861187264_1_alg».proof.Proof.Gen.KernelIdeal.Points
import Idealize.ShloMosaic.Lib.Pipeline.FrameBody
import Idealize.ShloMosaic.Lib.Tactic

noncomputable section

namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x5 := Rect.unit (s := S10000x5) ![0, 0] S10000x5.size inb_S10000x5_S10000x5_0_0

abbrev r1_1 : Rect S10000x20 := Rect.unit (s := S10000x20) ![0, 0] S10000x20.size inb_S10000x20_S10000x20_0_0

abbrev r1_2 : Rect S5x80 := Rect.unit (s := S5x80) ![0, 0] S5x80.size inb_S5x80_S5x80_0_0

abbrev r1_3 : Rect S20x80 := Rect.unit (s := S20x80) ![0, 0] S20x80.size inb_S20x80_S20x80_0_0

abbrev r1_4 : Rect S80 := Rect.unit (s := S80) ![0] S80.size inb_S80_S80_0

def out1_7 (x0 : Vec F S10000x5 .f32) (x1 : Vec F S10000x20 .f32) (x2 : Vec F S10000x20 .f32) (x3 : Vec F S5x80 .f32) (x4 : Vec F S20x80 .f32) (x5 : Vec F S80 .f32) (x6 : Vec F S80 .f32) : Vec F S10000x20 .f32 :=
  View.canon [⟨r1_1, k1_pay3 (View.ld x0 r1_0) (View.ld x3 r1_2) (View.ld x1 r1_1) (View.ld x4 r1_3) (View.ld x5 r1_4) (View.ld x6 r1_4) (View.ld x2 r1_1)⟩]

def out1_8 (x0 : Vec F S10000x5 .f32) (x1 : Vec F S10000x20 .f32) (x2 : Vec F S10000x20 .f32) (x3 : Vec F S5x80 .f32) (x4 : Vec F S20x80 .f32) (x5 : Vec F S80 .f32) (x6 : Vec F S80 .f32) : Vec F S10000x20 .f32 :=
  View.canon [⟨r1_1, k1_pay2 (View.ld x0 r1_0) (View.ld x3 r1_2) (View.ld x1 r1_1) (View.ld x4 r1_3) (View.ld x5 r1_4) (View.ld x6 r1_4) (View.ld x2 r1_1)⟩]

theorem sound_kernel1 (c : Dev nD) (E : Set ℕ) (i : grid1.Coords) (arg1 : Memref sig .tc .vmem S10000x5 .f32) (harg1 : arg1.IsWhole) (arg2 : Memref sig .tc .vmem S10000x20 .f32) (harg2 : arg2.IsWhole) (arg3 : Memref sig .tc .vmem S10000x20 .f32) (harg3 : arg3.IsWhole) (arg4 : Memref sig .tc .vmem S5x80 .f32) (harg4 : arg4.IsWhole) (arg5 : Memref sig .tc .vmem S20x80 .f32) (harg5 : arg5.IsWhole) (arg6 : Memref sig .tc .vmem S80 .f32) (harg6 : arg6.IsWhole) (arg7 : Memref sig .tc .vmem S80 .f32) (harg7 : arg7.IsWhole) (arg8 : Memref sig .tc .vmem S10000x20 .f32) (harg8 : arg8.IsWhole) (arg9 : Memref sig .tc .vmem S10000x20 .f32) (harg9 : arg9.IsWhole)
    (x0 : Vec F S10000x5 .f32) (x1 : Vec F S10000x20 .f32) (x2 : Vec F S10000x20 .f32) (x3 : Vec F S5x80 .f32) (x4 : Vec F S20x80 .f32) (x5 : Vec F S80 .f32) (x6 : Vec F S80 .f32) (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)) :
    iprop(ins ∗ (∃ d, owns (c : Thread nD τ) arg8 fullShare d) ∗ (∃ d, owns (c : Thread nD τ) arg9 fullShare d)
        ∗ (iprop(ins ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__node_lstm_kernel i arg1 harg1 arg2 harg2 arg3 harg3 arg4 harg4 arg5 harg5 arg6 harg6 arg7 harg7 arg8 harg8 arg9 harg9) K := by
  simp only [cc1__node_lstm_kernel_eq_skeleton]; unfold cc1__node_lstm_kernel_skel
  subst hins
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, Hk⟩
  subst hf0 hf1 hf2 hf3 hf4 hf5 hf6
  sl_exec
  sl_step
  iapply Hk
  isplitr [H7 H8]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    isplitl [H4]; · iexists f4; iframe; ipureintro; rfl
    isplitl [H5]; · iexists f5; iframe; ipureintro; rfl
    iexists f6; iframe; ipureintro; rfl
  isplitl [H7] <;>
    (iexists _; iframe; ipureintro; exact View.read_writes_eq_canon _ _ _ (View.cover_of_tiled [⟨r1_1, _⟩] S10000x20.size (by rfl)))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

theorem before1 (c : Dev nD) (t : Fin cfg1.N) (w : Fin 9) (hw : w.val < 7) (d) : (dat1 V c).before w t d = (dat1 V c).after w t := by
  fin_cases w <;> first
    | exact absurd hw (by decide)
    | exact (dat1 V c).before_in_eq_fetched _ rfl (fun _ => rfl) (fun _ _ _ => rfl) (fun _ => rfl) t d

-- With the input blocks read off the arrays, the body's triple at a grid point is the obligation the launch theorem asks for.
theorem body_obligation1 (c : Dev nD) : BodyObligation (dat1 (F := F) V c) (defs₀ (F := F)) Variants.none () Set.univ := fun t => by
  rw [bigSep_W1, bigSep_W1]
  show _ ⊢ wp frame _ Set.univ (bodyAt1 t) _
  unfold bodyAt1
  simp (disch := decide) only [before1 V c t]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _ _ rfl)
  iframe H0 H1 H2 H3 H4 H5 H6
  isplitl [H7]; · iexists _; iexact H7
  isplitl [H8]; · iexists _; iexact H8
  iintro ⟨⟨H0, H1, H2, H3, H4, H5, H6⟩, H7, H8⟩
  iframe

end Region1

end Cert.KernelIdeal.Fr
end
-- ==== Proof.KI.Reg2.lean ====
import proofs.«421330_j44495861187264_1_alg».proof.Proof.Gen.KernelIdeal.Launch
import proofs.«421330_j44495861187264_1_alg».proof.Proof.Gen.KernelIdeal.Skeleton
import proofs.«421330_j44495861187264_1_alg».proof.Proof.Gen.KernelIdeal.Points
import Idealize.ShloMosaic.Lib.Pipeline.FrameBody
import Idealize.ShloMosaic.Lib.Tactic

noncomputable section

namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S20000x58 := Rect.unit (s := S20000x58) ![0, 0] S20000x58.size inb_S20000x58_S20000x58_0_0

abbrev r2_1 : Rect S58x64 := Rect.unit (s := S58x64) ![0, 0] S58x64.size inb_S58x64_S58x64_0_0

abbrev r2_2 : Rect S64 := Rect.unit (s := S64) ![0] S64.size inb_S64_S64_0

abbrev r2_3 : Rect S64x32 := Rect.unit (s := S64x32) ![0, 0] S64x32.size inb_S64x32_S64x32_0_0

abbrev r2_4 : Rect S32 := Rect.unit (s := S32) ![0] S32.size inb_S32_S32_0

abbrev r2_5 : Rect S20000x32 := Rect.unit (s := S20000x32) ![0, 0] S20000x32.size inb_S20000x32_S20000x32_0_0

def out2_5 (x0 : Vec F S20000x58 .f32) (x1 : Vec F S58x64 .f32) (x2 : Vec F S64 .f32) (x3 : Vec F S64x32 .f32) (x4 : Vec F S32 .f32) :
    Vec F S20000x32 .f32 :=
  View.canon [⟨r2_5, k2_pay1 (View.ld x0 r2_0) (View.ld x1 r2_1) (View.ld x2 r2_2) (View.ld x3 r2_3) (View.ld x4 r2_4)⟩]

theorem sound_kernel2 (c : Dev nD) (E : Set ℕ) (i : grid2.Coords)
    (arg1 : Memref sig .tc .vmem S20000x58 .f32) (harg1 : arg1.IsWhole) (arg2 : Memref sig .tc .vmem S58x64 .f32) (harg2 : arg2.IsWhole)
    (arg3 : Memref sig .tc .vmem S64 .f32) (harg3 : arg3.IsWhole) (arg4 : Memref sig .tc .vmem S64x32 .f32) (harg4 : arg4.IsWhole)
    (arg5 : Memref sig .tc .vmem S32 .f32) (harg5 : arg5.IsWhole) (arg6 : Memref sig .tc .vmem S20000x32 .f32) (harg6 : arg6.IsWhole)
    (x0 : Vec F S20000x58 .f32) (x1 : Vec F S58x64 .f32) (x2 : Vec F S64 .f32) (x3 : Vec F S64x32 .f32) (x4 : Vec F S32 .f32)
    (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4)) :
    iprop(ins ∗ (∃ d, owns (c : Thread nD τ) arg6 fullShare d)
        ∗ (iprop(ins ∗ owns (c : Thread nD τ) arg6 fullShare (out2_5 x0 x1 x2 x3 x4)) -∗ K ⟨⟩))
      ⊢ wp frame (wpE (defs₀ (F := F)) Variants.none c none) E (cc2__edge_mlp_kernel i arg1 harg1 arg2 harg2 arg3 harg3 arg4 harg4 arg5 harg5 arg6 harg6) K := by
  simp only [cc2__edge_mlp_kernel_eq_skeleton]; unfold cc2__edge_mlp_kernel_skel
  subst hins
  unfold owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, Hk⟩
  subst hf0 hf1 hf2 hf3 hf4
  sl_exec
  sl_step
  iapply Hk
  isplitr [H5]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    iexists f4; iframe; ipureintro; rfl
  iexists _; iframe; ipureintro
  exact View.read_writes_eq_canon _ _ _ (View.cover_of_tiled [⟨r2_5, _⟩] S20000x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) (w : Fin 6) (hw : w.val < 5) (d) : (dat2 V c).before w t d = (dat2 V c).after w t := by
  fin_cases w <;> first
    | exact absurd hw (by decide)
    | exact (dat2 V c).before_in_eq_fetched _ rfl (fun _ => rfl) (fun _ _ _ => rfl) (fun _ => rfl) t d

-- With the input blocks read off the arrays, the body's triple at a grid point is the obligation the launch theorem asks for.
theorem body_obligation2 (c : Dev nD) : BodyObligation (dat2 (F := F) V c) (defs₀ (F := F)) Variants.none () Set.univ := fun t => by
  rw [bigSep_W2, bigSep_W2]
  show _ ⊢ wp frame _ Set.univ (bodyAt2 t) _
  unfold bodyAt2
  simp (disch := decide) only [before2 V c t]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _ _ rfl)
  iframe H0 H1 H2 H3 H4
  isplitl [H5]; · iexists _; iexact H5
  iintro ⟨⟨H0, H1, H2, H3, H4⟩, H5⟩
  iframe
end

end Cert.KernelIdeal.Fr
end
-- ==== Proof.KI.Reg3.lean ====
import proofs.«421330_j44495861187264_1_alg».proof.Proof.Gen.KernelIdeal.Launch
import proofs.«421330_j44495861187264_1_alg».proof.Proof.Gen.KernelIdeal.Skeleton
import proofs.«421330_j44495861187264_1_alg».proof.Proof.Gen.KernelIdeal.Points
import Idealize.ShloMosaic.Lib.Pipeline.FrameBody
import Idealize.ShloMosaic.Lib.Tactic

noncomputable section

namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x28 := Rect.unit (s := S10000x28) ![0, 0] S10000x28.size inb_S10000x28_S10000x28_0_0

abbrev r3_1 : Rect S10000x32 := Rect.unit (s := S10000x32) ![0, 0] S10000x32.size inb_S10000x32_S10000x32_0_0

abbrev r3_2 : Rect S60x64 := Rect.unit (s := S60x64) ![0, 0] S60x64.size inb_S60x64_S60x64_0_0

abbrev r3_3 : Rect S64 := Rect.unit (s := S64) ![0] S64.size inb_S64_S64_0

abbrev r3_4 : Rect S64x64 := Rect.unit (s := S64x64) ![0, 0] S64x64.size inb_S64x64_S64x64_0_0

abbrev r3_5 : Rect S64x4 := Rect.unit (s := S64x4) ![0, 0] S64x4.size inb_S64x4_S64x4_0_0

abbrev r3_6 : Rect S4 := Rect.unit (s := S4) ![0] S4.size inb_S4_S4_0

abbrev r3_7 : Rect S10000x1 := Rect.unit (s := S10000x1) ![0, 0] S10000x1.size inb_S10000x1_S10000x1_0_0

abbrev r3_8 : Rect S10000x4 := Rect.unit (s := S10000x4) ![0, 0] S10000x4.size inb_S10000x4_S10000x4_0_0

def out3_9 (x0 : Vec F S10000x28 .f32) (x1 : Vec F S10000x32 .f32) (x2 : Vec F S10000x1 .f32) (x3 : Vec F S60x64 .f32) (x4 : Vec F S64 .f32) (x5 : Vec F S64x64 .f32) (x6 : Vec F S64 .f32) (x7 : Vec F S64x4 .f32) (x8 : Vec F S4 .f32) : Vec F S10000x4 .f32 :=
  View.canon [⟨r3_8, k3_pay1 (k3_pay2 (View.ld x0 r3_0) (View.ld x1 r3_1) (View.ld x3 r3_2) (View.ld x4 r3_3) (View.ld x5 r3_4) (View.ld x6 r3_3) (View.ld x7 r3_5) (View.ld x8 r3_6)) (View.ld x2 r3_7)⟩]

theorem sound_kernel3 (c : Dev nD) (E : Set ℕ) (i : grid3.Coords) (arg1 : Memref sig .tc .vmem S10000x28 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S60x64 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x4 .f32) (harg8 : arg8.IsWhole) (arg9 : Memref sig .tc .vmem S4 .f32) (harg9 : arg9.IsWhole) (arg10 : Memref sig .tc .vmem S10000x4 .f32) (harg10 : arg10.IsWhole)
    (x0 : Vec F S10000x28 .f32) (x1 : Vec F S10000x32 .f32) (x2 : Vec F S10000x1 .f32) (x3 : Vec F S60x64 .f32) (x4 : Vec F S64 .f32) (x5 : Vec F S64x64 .f32) (x6 : Vec F S64 .f32) (x7 : Vec F S64x4 .f32) (x8 : Vec F S4 .f32) (K : PUnit → sProp 𝕄) (ins : sProp 𝕄)
    (hins : ins = iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)) :
    iprop(ins ∗ (∃ d, owns (c : Thread nD τ) arg10 fullShare d)
        ∗ (iprop(ins ∗ owns (c : Thread nD τ) arg10 fullShare (out3_9 x0 x1 x2 x3 x4 x5 x6 x7 x8)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8 arg9 harg9 arg10 harg10) K := by
  simp only [cc3__node_mlp_kernel_eq_skeleton]; unfold cc3__node_mlp_kernel_skel
  simp only [k3_part1_eq_skeleton]; unfold k3_part1_skel
  subst hins
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, Hk⟩
  subst hf0 hf1 hf2 hf3 hf4 hf5 hf6 hf7 hf8
  sl_exec
  sl_step
  iapply Hk
  isplitr [H9]
  · isplitl [H0]; · iexists f0; iframe; ipureintro; rfl
    isplitl [H1]; · iexists f1; iframe; ipureintro; rfl
    isplitl [H2]; · iexists f2; iframe; ipureintro; rfl
    isplitl [H3]; · iexists f3; iframe; ipureintro; rfl
    isplitl [H4]; · iexists f4; iframe; ipureintro; rfl
    isplitl [H5]; · iexists f5; iframe; ipureintro; rfl
    isplitl [H6]; · iexists f6; iframe; ipureintro; rfl
    isplitl [H7]; · iexists f7; iframe; ipureintro; rfl
    iexists f8; iframe; ipureintro; rfl
  iexists _; iframe; ipureintro
  exact View.read_writes_eq_canon _ _ _ (View.cover_of_tiled [⟨r3_8, _⟩] S10000x4.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3 (c : Dev nD) (t : Fin cfg3.N) (w : Fin 10) (hw : w.val < 9) (d) : (dat3 V c).before w t d = (dat3 V c).after w t := by
  fin_cases w <;> first
    | exact absurd hw (by decide)
    | exact (dat3 V c).before_in_eq_fetched _ rfl (fun _ => rfl) (fun _ _ _ => rfl) (fun _ => rfl) t d

-- With the input blocks read off the arrays, the body's triple at a grid point is the obligation the launch theorem asks for.
theorem body_obligation3 (c : Dev nD) : BodyObligation (dat3 (F := F) V c) (defs₀ (F := F)) Variants.none () Set.univ := fun t => by
  rw [bigSep_W3, bigSep_W3]
  show _ ⊢ wp frame _ Set.univ (bodyAt3 t) _
  unfold bodyAt3
  simp (disch := decide) only [before3 V c t]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _ _ rfl)
  iframe H0 H1 H2 H3 H4 H5 H6 H7 H8
  isplitl [H9]; · iexists _; iexact H9
  iintro ⟨⟨H0, H1, H2, H3, H4, H5, H6, H7, H8⟩, H9⟩
  iframe

end Region3

end Cert.KernelIdeal.Fr
end
-- ==== Proof.KI.Run.lean ====
import proofs.«421330_j44495861187264_1_alg».proof.Proof.KI.Reg0
import proofs.«421330_j44495861187264_1_alg».proof.Proof.KI.Reg1
import proofs.«421330_j44495861187264_1_alg».proof.Proof.KI.Reg2
import proofs.«421330_j44495861187264_1_alg».proof.Proof.KI.Reg3
import proofs.«421330_j44495861187264_1_alg».proof.Proof.Gen.KernelIdeal.Regions
import Idealize.ShloMosaic.Lib.Pipeline.FrameSuffix
import Idealize.ShloMosaic.Lib.Pipeline.RegionsLoop

noncomputable section

namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wk0 : Dev nD → Valuation τ sig (Elt F) := fun c b => (s₀ m ρ).mem ((c : Dev nD), b)

abbrev Wk1 : Dev nD → Valuation τ sig (Elt F) := fun c => StableHlo.after hostOps0 (Wk0 m ρ c)

abbrev Ak1 : (c : Dev nD) → (b : Ref sig .tc) → Buf (Elt F) ((c : Thread nD τ).loc b) := fun c b => Wk1 m ρ c b

def Wk2 (c : Dev nD) : Valuation τ sig (Elt F) :=
  Pipeline.withArrays spec0 c (Wk1 m ρ c) fun w => (dat0 (Ak1 m ρ) c).arrAt w cfg0.N

theorem Wk2_arr (c : Dev nD) (w : Fin cfg0.W) :
    Wk2 m ρ c (Proc.devRef .tc (Pipeline.arrRef spec0 w)) = (dat0 (Ak1 m ρ) c).arrAt w cfg0.N := by
  unfold Wk2; exact Pipeline.withArrays_arr spec0 launch0.win.arr_inj c _ _ w

theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb

abbrev Wk3 : Dev nD → Valuation τ sig (Elt F) := fun c => StableHlo.after hostOps1 (Wk2 m ρ c)

abbrev Ak3 : (c : Dev nD) → (b : Ref sig .tc) → Buf (Elt F) ((c : Thread nD τ).loc b) := fun c b => Wk3 m ρ c b

def Wk4 (c : Dev nD) : Valuation τ sig (Elt F) :=
  Pipeline.withArrays spec1 c (Wk3 m ρ c) fun w => (dat1 (Ak3 m ρ) c).arrAt w cfg1.N

theorem Wk4_arr (c : Dev nD) (w : Fin cfg1.W) :
    Wk4 m ρ c (Proc.devRef .tc (Pipeline.arrRef spec1 w)) = (dat1 (Ak3 m ρ) c).arrAt w cfg1.N := by
  unfold Wk4; exact Pipeline.withArrays_arr spec1 launch1.win.arr_inj c _ _ w

theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb

abbrev Wk5 : Dev nD → Valuation τ sig (Elt F) := fun c => StableHlo.after hostOps2 (Wk4 m ρ c)

abbrev Ak5 : (c : Dev nD) → (b : Ref sig .tc) → Buf (Elt F) ((c : Thread nD τ).loc b) := fun c b => Wk5 m ρ c b

def Wk6 (c : Dev nD) : Valuation τ sig (Elt F) :=
  Pipeline.withArrays spec2 c (Wk5 m ρ c) fun w => (dat2 (Ak5 m ρ) c).arrAt w cfg2.N

theorem Wk6_arr (c : Dev nD) (w : Fin cfg2.W) :
    Wk6 m ρ c (Proc.devRef .tc (Pipeline.arrRef spec2 w)) = (dat2 (Ak5 m ρ) c).arrAt w cfg2.N := by
  unfold Wk6; exact Pipeline.withArrays_arr spec2 launch2.win.arr_inj c _ _ w

theorem Wk6_of_ne (c : Dev nD) (b : Ref sig .tc) (hb : ∀ w, Pipeline.arrRef spec2 w ≠ b) :
    Wk6 m ρ c (Proc.devRef .tc b) = Wk5 m ρ c (Proc.devRef .tc b) := by
  unfold Wk6; exact Pipeline.withArrays_of_ne spec2 c _ _ b hb

abbrev Wk7 : Dev nD → Valuation τ sig (Elt F) := fun c => StableHlo.after hostOps3 (Wk6 m ρ c)

abbrev Ak7 : (c : Dev nD) → (b : Ref sig .tc) → Buf (Elt F) ((c : Thread nD τ).loc b) := fun c b => Wk7 m ρ c b

def Wk8 (c : Dev nD) : Valuation τ sig (Elt F) :=
  Pipeline.withArrays spec3 c (Wk7 m ρ c) fun w => (dat3 (Ak7 m ρ) c).arrAt w cfg3.N

theorem Wk8_arr (c : Dev nD) (w : Fin cfg3.W) :
    Wk8 m ρ c (Proc.devRef .tc (Pipeline.arrRef spec3 w)) = (dat3 (Ak7 m ρ) c).arrAt w cfg3.N := by
  unfold Wk8; exact Pipeline.withArrays_arr spec3 launch3.win.arr_inj c _ _ w

theorem Wk8_of_ne (c : Dev nD) (b : Ref sig .tc) (hb : ∀ w, Pipeline.arrRef spec3 w ≠ b) :
    Wk8 m ρ c (Proc.devRef .tc b) = Wk7 m ρ c (Proc.devRef .tc b) := by
  unfold Wk8; exact Pipeline.withArrays_of_ne spec3 c _ _ b hb

abbrev Wk9 : Dev nD → Valuation τ sig (Elt F) := fun c => StableHlo.after hostOps4 (Wk8 m ρ c)

abbrev adm' : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm' p) c
  | ⟨0, _⟩ => fun c => dat0 (Ak1 m ρ) c
  | ⟨1, _⟩ => fun c => dat1 (Ak3 m ρ) c
  | ⟨2, _⟩ => fun c => dat2 (Ak5 m ρ) c
  | ⟨3, _⟩ => fun c => dat3 (Ak7 m ρ) c

abbrev 𝒱' : Variants := Variants.none

abbrev L' : GSem nD τ sig → Finset Unit := fun _ => ∅

abbrev lv' : GSem nD τ sig → Unit → ℕ := fun _ _ => 0

abbrev Rest (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (Wk9 m ρ c) ∗ ∃ r, prngReg c r)

-- One kernel region as an item of @main: it takes the buffers from `W` to `W'`, which differs from `W` only at the region's arrays.
set_option backward.isDefEq.respectTransparency.types false in
def regOf (p : Fin 4) (lf : Pipeline.LaunchFacts (nD := nD) (τ := τ) cfgs p) (W W' : Dev nD → Valuation τ sig (Elt F))
    (hbody : ∀ c, BodyObligation (pdats m ρ p c) (defs₀ (F := F)) 𝒱' () Set.univ)
    (hF : ∀ c w, W' c (Proc.devRef .tc (Pipeline.arrRef (cfgs p).spec w)) = (pdats m ρ p c).arrAt w (cfgs p).N)
    (hne : ∀ c (b : Ref sig .tc), (∀ w, Pipeline.arrRef (cfgs p).spec w ≠ b) → W' c (Proc.devRef .tc b) = W c (Proc.devRef .tc b))
    (hq : ∀ c w, (pdats m ρ p c).share w = fullShare := by exact fun _ => Pipeline.Dat.share_full _ fun _ => rfl)
    (hA : ∀ c w, (pdats m ρ p c).A w = W c (Pipeline.arrRef (cfgs p).spec w) := by exact fun _ _ => rfl)
    (hΦ : ∀ c j, (pdats m ρ p c).Φ j = Pipeline.ΦA (cfgs p).spec c := by exact fun _ _ => rfl)
    (h0 : ∀ c w, (pdats m ρ p c).owed w = 0 := by exact fun _ _ => rfl)
    (hrec : ∀ c j, (pdats m ρ p c).recorded j = Set.univ := by exact fun _ _ => rfl) :
    Pipeline.RegionSeg (pcfgs (F := F)) adm' (pdats m ρ) () defs₀ 𝒱' L' lv' p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L' lv' p h0
  pre c := iprop(StableHlo.held (c : Thread nD τ) (Pipeline.ucRefs τ sig) (W c) ∗ Rest c)
  post c := iprop(StableHlo.held (c : Thread nD τ) (Pipeline.ucRefs τ sig) (W' c) ∗ Rest c)
  X c := iprop(∃ r, prngReg c r)
  Y c := iprop(∃ r, prngReg c r)
  Z c := Pipeline.unscopedRest (cfgs p).spec c (fun b => W c b)
  hentry c := by
    rw [Pipeline.ownSems0_none]
    have hsplit := Pipeline.arrays_of_unscopedBufs (p := p) (pcfgs (F := F)) adm' (pdats m ρ) lf.win lf.arr_whole c
      (hq c) (fun b => W c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [h0]
    icases HO with ⟨%W, HO⟩; iexists W; isplitr; · ipureintro; exact fun _ _ => Or.inl (by rw [hrec]; trivial)
    iexact HO
  hin c := by
    rw [hΦ]; unfold Pipeline.ΦA
    iintro ⟨Hp, -, Hr⟩; iframe
  hout c := by
    rw [Pipeline.ownSems0_none, hΦ]; unfold Pipeline.ΦA
    iintro ⟨Hr, Hp⟩; iframe; iempintro
  hexit c := by
    have hjoin := Pipeline.unscopedBufs_of_arrays (p := p) (pcfgs (F := F)) adm'
      lf.win lf.arr_whole c (pdats m ρ) (hq c)
      (fun b => W c b) (fun b => W' c b) ((pdats m ρ p c).arrAt · (cfgs p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [h0]
    icases HO with ⟨%W, -, HO⟩; iexists W; iexact HO

def reg0 := regOf m ρ 0 launch0 (Wk1 m ρ) (Wk2 m ρ) (body_obligation0 (Ak1 m ρ)) (Wk2_arr m ρ) (Wk2_of_ne m ρ)

def reg1 := regOf m ρ 1 launch1 (Wk3 m ρ) (Wk4 m ρ) (body_obligation1 (Ak3 m ρ)) (Wk4_arr m ρ) (Wk4_of_ne m ρ)

def reg2 := regOf m ρ 2 launch2 (Wk5 m ρ) (Wk6 m ρ) (body_obligation2 (Ak5 m ρ)) (Wk6_arr m ρ) (Wk6_of_ne m ρ)

def reg3 := regOf m ρ 3 launch3 (Wk7 m ρ) (Wk8 m ρ) (body_obligation3 (Ak7 m ρ)) (Wk8_arr m ρ) (Wk8_of_ne m ρ)

abbrev segs' : List (Pipeline.Seg (pcfgs (F := F)) adm' (pdats m ρ) () defs₀ 𝒱' L' lv') :=
  [ .host (hseg hostOps0 hostOps0_sub hostOps0_fresh (Wk0 m ρ)),
    .region (reg0 m ρ),
    .host (hseg hostOps1 hostOps1_sub hostOps1_fresh (Wk2 m ρ)),
    .region (reg1 m ρ),
    .host (hseg hostOps2 hostOps2_sub hostOps2_fresh (Wk4 m ρ)),
    .region (reg2 m ρ),
    .host (hseg hostOps3 hostOps3_sub hostOps3_fresh (Wk6 m ρ)),
    .region (reg3 m ρ),
    .host (hseg hostOps4 hostOps4_sub hostOps4_fresh (Wk8 m ρ)) ]

theorem main_run (c : Dev nD) : main (F := F) c = Pipeline.Seg.run (segs' m ρ) := (main_chain c).trans (by chain_rfl)

set_option backward.isDefEq.respectTransparency.types false in
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wk9 m ρ c (Proc.devRef .tc b)) :=
  Pipeline.θ_run_regions_kit (pcfgs (F := F)) adm' (pdats m ρ) () cellOf_inj emb₁ defs₀ 𝒱' L' lv' m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ Rest c)) (Tₙ := Tlast m ρ)
    (hch := ⟨fun _ => .rfl, fun _ => .rfl, fun _ => .rfl, fun _ => .rfl, fun _ => .rfl, fun _ => .rfl, fun _ => .rfl, fun _ => .rfl, fun _ => .rfl,
      fun _ => Laws.sep_assoc.2⟩)
    (hinit := by
      refine Pipeline.initEach L' lv' fun c => ?_
      rw [Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk9 m ρ c) s')
      isplitl [Hh] <;> iassumption)
    (hQ := fun s h c b hb => h c _ (mem_uc b hb))
end Cert.KernelIdeal.Fr
end
-- ==== Proof.KI.Keep.lean ====
import proofs.«421330_j44495861187264_1_alg».proof.Proof.KI.Run

noncomputable section

namespace Cert.KernelIdeal.Fr

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD) (r : Ref sig .tc)

theorem Wk1_keep (h : r ∉ hostOps0_W := by decide) : Wk1 m ρ c (Proc.devRef .tc r) = Wk0 m ρ c (Proc.devRef .tc r) :=
  StableHlo.after_of_writes_sub hostOps0 _ hostOps0_writes h

theorem Wk3_keep (h : r ∉ hostOps1_W := by decide) : Wk3 m ρ c (Proc.devRef .tc r) = Wk2 m ρ c (Proc.devRef .tc r) :=
  StableHlo.after_of_writes_sub hostOps1 _ hostOps1_writes h

theorem Wk5_keep (h : r ∉ hostOps2_W := by decide) : Wk5 m ρ c (Proc.devRef .tc r) = Wk4 m ρ c (Proc.devRef .tc r) :=
  StableHlo.after_of_writes_sub hostOps2 _ hostOps2_writes h

theorem Wk7_keep (h : r ∉ hostOps3_W := by decide) : Wk7 m ρ c (Proc.devRef .tc r) = Wk6 m ρ c (Proc.devRef .tc r) :=
  StableHlo.after_of_writes_sub hostOps3 _ hostOps3_writes h

theorem Wk9_keep (h : r ∉ hostOps4_W := by decide) : Wk9 m ρ c (Proc.devRef .tc r) = Wk8 m ρ c (Proc.devRef .tc r) :=
  StableHlo.after_of_writes_sub hostOps4 _ hostOps4_writes h

-- A region changes no array but those of its output windows: an input window's array ends as it was found.
theorem Wk2_keep (h : ∀ w, Pipeline.arrRef spec0 w = r → (cfg0.win w).isOut = false := by decide) :
    Wk2 m ρ c (Proc.devRef .tc r) = Wk1 m ρ c (Proc.devRef .tc r) := by
  by_cases hw : ∃ w, Pipeline.arrRef spec0 w = r
  · obtain ⟨w, rfl⟩ := hw
    exact (Wk2_arr m ρ c w).trans (((dat0 (Ak1 m ρ) c).arrAt_in w (h w rfl) _).trans (A_eq0 (Ak1 m ρ) c w))
  · exact Wk2_of_ne m ρ c r fun w e => hw ⟨w, e⟩

theorem Wk4_keep (h : ∀ w, Pipeline.arrRef spec1 w = r → (cfg1.win w).isOut = false := by decide) :
    Wk4 m ρ c (Proc.devRef .tc r) = Wk3 m ρ c (Proc.devRef .tc r) := by
  by_cases hw : ∃ w, Pipeline.arrRef spec1 w = r
  · obtain ⟨w, rfl⟩ := hw
    exact (Wk4_arr m ρ c w).trans (((dat1 (Ak3 m ρ) c).arrAt_in w (h w rfl) _).trans (A_eq1 (Ak3 m ρ) c w))
  · exact Wk4_of_ne m ρ c r fun w e => hw ⟨w, e⟩

theorem Wk6_keep (h : ∀ w, Pipeline.arrRef spec2 w = r → (cfg2.win w).isOut = false := by decide) :
    Wk6 m ρ c (Proc.devRef .tc r) = Wk5 m ρ c (Proc.devRef .tc r) := by
  by_cases hw : ∃ w, Pipeline.arrRef spec2 w = r
  · obtain ⟨w, rfl⟩ := hw
    exact (Wk6_arr m ρ c w).trans (((dat2 (Ak5 m ρ) c).arrAt_in w (h w rfl) _).trans (A_eq2 (Ak5 m ρ) c w))
  · exact Wk6_of_ne m ρ c r fun w e => hw ⟨w, e⟩

theorem Wk8_keep (h : ∀ w, Pipeline.arrRef spec3 w = r → (cfg3.win w).isOut = false := by decide) :
    Wk8 m ρ c (Proc.devRef .tc r) = Wk7 m ρ c (Proc.devRef .tc r) := by
  by_cases hw : ∃ w, Pipeline.arrRef spec3 w = r
  · obtain ⟨w, rfl⟩ := hw
    exact (Wk8_arr m ρ c w).trans (((dat3 (Ak7 m ρ) c).arrAt_in w (h w rfl) _).trans (A_eq3 (Ak7 m ρ) c w))
  · exact Wk8_of_ne m ρ c r fun w e => hw ⟨w, e⟩

-- A buffer that no host stretch writes and that is no region's output ends as launched.
theorem Wk9_of_untouched (h0 : r ∉ hostOps0_W := by decide) (h1 : r ∉ hostOps1_W := by decide) (h2 : r ∉ hostOps2_W := by decide)
    (h3 : r ∉ hostOps3_W := by decide) (h4 : r ∉ hostOps4_W := by decide)
    (ha : ∀ w, Pipeline.arrRef spec0 w = r → (cfg0.win w).isOut = false := by decide)
    (hb : ∀ w, Pipeline.arrRef spec1 w = r → (cfg1.win w).isOut = false := by decide)
    (hc : ∀ w, Pipeline.arrRef spec2 w = r → (cfg2.win w).isOut = false := by decide)
    (hd : ∀ w, Pipeline.arrRef spec3 w = r → (cfg3.win w).isOut = false := by decide) :
    Wk9 m ρ c (Proc.devRef .tc r) = m ((c.tc : Thread nD τ).loc r) :=
  (Wk9_keep m ρ c r h4).trans <| (Wk8_keep m ρ c r hd).trans <| (Wk7_keep m ρ c r h3).trans <| (Wk6_keep m ρ c r hc).trans <|
    (Wk5_keep m ρ c r h2).trans <| (Wk4_keep m ρ c r hb).trans <| (Wk3_keep m ρ c r h1).trans <|
    (Wk2_keep m ρ c r ha).trans <| (Wk1_keep m ρ c r h0)

end Cert.KernelIdeal.Fr

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev A2 (r c : Nat) : Type := FVec Ideal (⟨2, ![r, c]⟩ : Shape) .f32
abbrev A1 (n : Nat) : Type := FVec Ideal (⟨1, ![n]⟩ : Shape) .f32

-- The matrix product at (i, j), w being the weights already transposed: the sum over k of x[i,k] * w[k,j].
def dot {R K C : Nat} (x : A2 R K) (w : A2 K C) (i : Fin R) (j : Fin C) : EReal :=
  ∑ k : Fin K, x (ix2 i k) * w (ix2 k j)

def sigm (x : EReal) : EReal := Ideal.logistic x

-- Leaky rectifier: a nonnegative x is kept, a negative x is scaled by the f32 number nearest 1/100.
def leaky (x : EReal) : EReal :=
  Scalar.select (FloatOps.cmpf (F := Ideal) (φ := .f32) .oge x (Ideal.ofBits .f32 0x00000000#32)) x
    (Ideal.ofBits .f32 0x3C23D70A#32 * x)

-- What the four gates are fed, at row i and gate column g; the gates i, f, g, o start at columns 0, H, 2H, 3H.
def gates {R A H G : Nat} (x : A2 R A) (h : A2 R H) (wT : A2 A G) (uT : A2 H G) (b1 b2 : A1 G) (i : Fin R) (g : Fin G) : EReal :=
  dot x wT i g + dot h uT i g + b1 (ix1 g) + b2 (ix1 g)

-- c' = sigm f * c + sigm i * tanh g.
def cellNew {R A H G : Nat} (ci cf cg : Fin H → Fin G) (x : A2 R A) (h c : A2 R H) (wT : A2 A G) (uT : A2 H G) (b1 b2 : A1 G)
    (i : Fin R) (j : Fin H) : EReal :=
  sigm (gates x h wT uT b1 b2 i (cf j)) * c (ix2 i j)
    + sigm (gates x h wT uT b1 b2 i (ci j)) * Ideal.tanh (gates x h wT uT b1 b2 i (cg j))

-- h' = sigm o * tanh c'.
def hidNew {R A H G : Nat} (ci cf cg co : Fin H → Fin G) (x : A2 R A) (h c : A2 R H) (wT : A2 A G) (uT : A2 H G) (b1 b2 : A1 G)
    (i : Fin R) (j : Fin H) : EReal :=
  sigm (gates x h wT uT b1 b2 i (co j)) * Ideal.tanh (cellNew ci cf cg x h c wT uT b1 b2 i j)

def col {H G : Nat} (o : Nat) (hle : o + H ≤ G) (j : Fin H) : Fin G := ⟨o + j.val, by omega⟩

def edgeC (ea : A2 1000000 2) (h c : A2 1000000 8) (wT : A2 2 32) (uT : A2 8 32) (b1 b2 : A1 32) : A2 1000000 8 :=
  fun idx => cellNew (col 0 (by decide)) (col 8 (by decide)) (col 16 (by decide)) ea h c wT uT b1 b2 (idx 0) (idx 1)
def edgeH (ea : A2 1000000 2) (h c : A2 1000000 8) (wT : A2 2 32) (uT : A2 8 32) (b1 b2 : A1 32) : A2 1000000 8 :=
  fun idx => hidNew (col 0 (by decide)) (col 8 (by decide)) (col 16 (by decide)) (col 24 (by decide)) ea h c wT uT b1 b2 (idx 0) (idx 1)
def nodeC (xf : A2 100000 5) (h c : A2 100000 20) (wT : A2 5 80) (uT : A2 20 80) (b1 b2 : A1 80) : A2 100000 20 :=
  fun idx => cellNew (col 0 (by decide)) (col 20 (by decide)) (col 40 (by decide)) xf h c wT uT b1 b2 (idx 0) (idx 1)
def nodeH (xf : A2 100000 5) (h c : A2 100000 20) (wT : A2 5 80) (uT : A2 20 80) (b1 b2 : A1 80) : A2 100000 20 :=
  fun idx => hidNew (col 0 (by decide)) (col 20 (by decide)) (col 40 (by decide)) (col 60 (by decide)) xf h c wT uT b1 b2 (idx 0) (idx 1)

-- A hidden layer leaky (x * w + b) and an affine output layer x * w + b, at row i.
def layer {R K C : Nat} (x : Fin R → Fin K → EReal) (wT : A2 K C) (b : A1 C) (i : Fin R) (k : Fin C) : EReal :=
  leaky ((∑ a : Fin K, x i a * wT (ix2 a k)) + b (ix1 k))

def affine {R K C : Nat} (x : Fin R → Fin K → EReal) (wT : A2 K C) (b : A1 C) (i : Fin R) (j : Fin C) : EReal :=
  (∑ a : Fin K, x i a * wT (ix2 a j)) + b (ix1 j)

def edgeMlp (ein : A2 1000000 58) (w1T : A2 58 64) (b1 : A1 64) (w2T : A2 64 32) (b2 : A1 32) : A2 1000000 32 :=
  fun idx => affine (layer (fun i a => ein (ix2 i a)) w1T b1) w2T b2 (idx 0) (idx 1)

-- For row i, its 28 node features and after them its 32 summed messages.
def xagg {R : Nat} (xc : A2 R 28) (agg : A2 R 32) (i : Fin R) (k : Fin 60) : EReal :=
  if h : k.val < 28 then xc (ix2 i ⟨k.val, h⟩) else agg (ix2 i ⟨k.val - 28, by omega⟩)

def nodeY (xc : A2 100000 28) (agg : A2 100000 32) (w1T : A2 60 64) (b1 : A1 64) (w2T : A2 64 64) (b2 : A1 64)
    (w3T : A2 64 4) (b3 : A1 4) (i : Fin 100000) (j : Fin 4) : EReal :=
  affine (layer (layer (xagg xc agg) w1T b1) w2T b2) w3T b3 i j

-- The node perceptron's result selected against zero by a type flag, and the same result times a 0/1 mask column.
def nodeOut (xc : A2 100000 28) (agg : A2 100000 32) (anyT : IVec (⟨1, ![100000]⟩ : Shape) 1) (w1T : A2 60 64) (b1 : A1 64)
    (w2T : A2 64 64) (b2 : A1 64) (w3T : A2 64 4) (b3 : A1 4) : A2 100000 4 :=
  fun idx => Scalar.select (anyT (ix1 (idx 0))) (nodeY xc agg w1T b1 w2T b2 w3T b3 (idx 0) (idx 1)) 0

def nodeMasked (xc : A2 100000 28) (agg : A2 100000 32) (mask : A2 100000 1) (w1T : A2 60 64) (b1 : A1 64)
    (w2T : A2 64 64) (b2 : A1 64) (w3T : A2 64 4) (b3 : A1 4) : A2 100000 4 :=
  fun idx => nodeY xc agg w1T b1 w2T b2 w3T b3 (idx 0) (idx 1) * mask (ix2 (idx 0) 0)

end Cert.Spec

end
-- ==== Proof.KI.ValLib.lean ====
import proofs.«421330_j44495861187264_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ValLib

open Cert Idealize.ShloMosaic Idealize.ShloMosaic.ValueIdx

variable {α : Type}

-- a matrix product added to the zero array, at (p, q): the sum over the one contracted coordinate
theorem matmul_apply {M K N : Nat} {D : DotDims ⟨2, ![M, K]⟩ ⟨2, ![K, N]⟩ ⟨2, ![M, N]⟩} (hD : D = DotDims.plain M K N)
    (x : Spec.A2 M K) (w : Spec.A2 K N) (p : Fin M) (q : Fin N) :
    matmul D none x w (constant (F := Ideal) ⟨2, ![M, N]⟩ .f32 0x00000000#32) (ix2 p q) = Spec.dot x w p q := by
  subst hD
  show FloatOps.matmul _ none x w _ _ = ∑ a : Fin K, x (ix2 p a) * w (ix2 a q)
  rw [Ideal.matmul_constant_zero_apply, ← Equiv.sum_comp (contrEquiv1 (DotDims.plain M K N) K rfl rfl).symm]
  refine Finset.sum_congr rfl fun a _ => ?_
  have h := contrEquiv1_symm_val (DotDims.plain M K N) K rfl rfl a
  rw [show (DotDims.plain M K N).lhsIdx (ix2 p q) ((contrEquiv1 _ K rfl rfl).symm a) = ix2 p a from Shape.idx_ext₂ rfl h,
    show (DotDims.plain M K N).rhsIdx (ix2 p q) ((contrEquiv1 _ K rfl rfl).symm a) = ix2 a q from Shape.idx_ext₂ h rfl]

theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

theorem bias_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

-- a product plus a bias row is the affine layer, for any row function the left operand's entries are
theorem affine_apply {M K N : Nat} {D : DotDims ⟨2, ![M, K]⟩ ⟨2, ![K, N]⟩ ⟨2, ![M, N]⟩} (hD : D = DotDims.plain M K N)
    (X : Spec.A2 M K) (xf : Fin M → Fin K → EReal) (hX : ∀ p a, X (ix2 p a) = xf p a) (w : Spec.A2 K N) (b : Spec.A1 N)
    (h1 : (⟨1, ![N]⟩ : Shape).ShapeCasts ⟨2, ![1, N]⟩) (hb : (⟨2, ![1, N]⟩ : Shape).Broadcasts ⟨2, ![M, N]⟩) (p : Fin M) (k : Fin N) :
    addf (matmul D none X w (constant (F := Ideal) ⟨2, ![M, N]⟩ .f32 0x00000000#32))
      (broadcastTo ⟨2, ![M, N]⟩ (shapeCast ⟨2, ![1, N]⟩ b h1) hb) (ix2 p k) = Spec.affine xf w b p k := by
  rw [addf_apply, matmul_apply hD, bias_apply]
  unfold Spec.affine Spec.dot
  simp only [hX]

-- and the rectifier of an affine layer's entry is the hidden layer's
theorem layer_apply {s : Shape} (Z : FVec Ideal s .f32) (i : s.Idx) {R K C : Nat} (xf : Fin R → Fin K → EReal) (w : Spec.A2 K C)
    (b : Spec.A1 C) (p : Fin R) (k : Fin C) (hZ : Z i = Spec.affine xf w b p k) :
    select (cmpf .oge Z (broadcast s (Scalar.ofBits (F := Ideal) .f32 0x00000000#32))) Z
      (mulf (broadcast s (Scalar.ofBits (F := Ideal) .f32 0x3C23D70A#32)) Z) i = Spec.layer xf w b p k := by
  show Spec.leaky (Z i) = _
  rw [hZ]; rfl

-- a layer at row i reads row i of its input only
theorem affine_congr {R R' K C : Nat} {x : Fin R → Fin K → EReal} {x' : Fin R' → Fin K → EReal} (w : Spec.A2 K C) (b : Spec.A1 C)
    {i : Fin R} {i' : Fin R'} (h : ∀ a, x i a = x' i' a) (j : Fin C) : Spec.affine x w b i j = Spec.affine x' w b i' j := by
  unfold Spec.affine; simp only [h]
theorem layer_congr {R R' K C : Nat} {x : Fin R → Fin K → EReal} {x' : Fin R' → Fin K → EReal} (w : Spec.A2 K C) (b : Spec.A1 C)
    {i : Fin R} {i' : Fin R'} (h : ∀ a, x i a = x' i' a) (j : Fin C) : Spec.layer x w b i j = Spec.layer x' w b i' j := by
  unfold Spec.layer; simp only [h]

-- the LSTM step at row i reads row i of the row-indexed arrays only
theorem gates_rows {R R' A H G : Nat} {x : Spec.A2 R A} {x' : Spec.A2 R' A} {h : Spec.A2 R H} {h' : Spec.A2 R' H}
    (wT : Spec.A2 A G) (uT : Spec.A2 H G) (b1 b2 : Spec.A1 G) {i : Fin R} {i' : Fin R'}
    (hx : ∀ k, x (ix2 i k) = x' (ix2 i' k)) (hh : ∀ k, h (ix2 i k) = h' (ix2 i' k)) :
    Spec.gates x h wT uT b1 b2 i = Spec.gates x' h' wT uT b1 b2 i' := by
  funext g
  unfold Spec.gates Spec.dot
  simp only [hx, hh]

theorem cellNew_rows {R R' A H G : Nat} (ci cf cg : Fin H → Fin G) {x : Spec.A2 R A} {x' : Spec.A2 R' A} {h c : Spec.A2 R H}
    {h' c' : Spec.A2 R' H} (wT : Spec.A2 A G) (uT : Spec.A2 H G) (b1 b2 : Spec.A1 G) {i : Fin R} {i' : Fin R'}
    (hx : ∀ k, x (ix2 i k) = x' (ix2 i' k)) (hh : ∀ k, h (ix2 i k) = h' (ix2 i' k)) (hc : ∀ k, c (ix2 i k) = c' (ix2 i' k))
    (j : Fin H) : Spec.cellNew ci cf cg x h c wT uT b1 b2 i j = Spec.cellNew ci cf cg x' h' c' wT uT b1 b2 i' j := by
  unfold Spec.cellNew
  rw [gates_rows wT uT b1 b2 hx hh, hc]

theorem hidNew_rows {R R' A H G : Nat} (ci cf cg co : Fin H → Fin G) {x : Spec.A2 R A} {x' : Spec.A2 R' A} {h c : Spec.A2 R H}
    {h' c' : Spec.A2 R' H} (wT : Spec.A2 A G) (uT : Spec.A2 H G) (b1 b2 : Spec.A1 G) {i : Fin R} {i' : Fin R'}
    (hx : ∀ k, x (ix2 i k) = x' (ix2 i' k)) (hh : ∀ k, h (ix2 i k) = h' (ix2 i' k)) (hc : ∀ k, c (ix2 i k) = c' (ix2 i' k))
    (j : Fin H) : Spec.hidNew ci cf cg co x h c wT uT b1 b2 i j = Spec.hidNew ci cf cg co x' h' c' wT uT b1 b2 i' j := by
  unfold Spec.hidNew
  rw [gates_rows wT uT b1 b2 hx hh, cellNew_rows ci cf cg wT uT b1 b2 hx hh hc]

theorem hz2 : (![0, 0] : Fin 2 → Nat) = fun _ => 0 := funext fun a => by fin_cases a <;> rfl
theorem hz1 : (![0] : Fin 1 → Nat) = fun _ => 0 := funext fun a => by fin_cases a; rfl

-- reading a whole block gives the block; writing a whole block once gives what was written
theorem ld2 {Val : EltTy → Type} {e : EltTy} {n0 n1 : ℕ} (inb) (X : (⟨2, ![n0, n1]⟩ : Shape).Idx → Val e) :
    View.ld X (Rect.unit ![0, 0] (⟨2, ![n0, n1]⟩ : Shape).size inb) = X := View.ld_unit_zero hz2 inb X
theorem ld1 {Val : EltTy → Type} {e : EltTy} {n0 : ℕ} (inb) (X : (⟨1, ![n0]⟩ : Shape).Idx → Val e) :
    View.ld X (Rect.unit ![0] (⟨1, ![n0]⟩ : Shape).size inb) = X := View.ld_unit_zero hz1 inb X
theorem canon2 {Val : EltTy → Type} [∀ e, Nonempty (Val e)] {e : EltTy} {n0 n1 : ℕ} (inb) (w : (⟨2, ![n0, n1]⟩ : Shape).Idx → Val e) :
    View.canon [(⟨Rect.unit ![0, 0] (⟨2, ![n0, n1]⟩ : Shape).size inb, w⟩ : View.Piece Val ⟨2, ![n0, n1]⟩ e)] = w :=
  View.canon_unit_zero hz2 inb w

theorem block_ext {n0 n1 : ℕ} {f g : (⟨2, ![n0, n1]⟩ : Shape).Idx → α} (h : ∀ p q, f (ix2 p q) = g (ix2 p q)) : f = g :=
  funext fun j => by rw [eq_ix2 j]; exact h _ _

-- coordinates (n·B + 1·p, m·C + 1·k) at block index n = t, m = 0 are those of (t·B + p, k)
theorem ix2_rows {n0 n1 n m t B C p : ℕ} {x : (⟨2, ![n0, n1]⟩ : Shape).Idx} {r : Fin n0} {k : Fin n1}
    (hn : n = t) (hm : m = 0) (hr : r.val = t * B + p)
    (h0 : (x 0).val = n * B + 1 * p) (h1 : (x 1).val = m * C + 1 * k.val) : x = ix2 r k :=
  Shape.idx_ext₂ (show (x 0).val = r.val by subst hn; omega) (show (x 1).val = k.val by subst hm; omega)

-- at block index 0 a block as large as its array is the array
theorem idx2_whole {n0 n1 n m : ℕ} {x y : (⟨2, ![n0, n1]⟩ : Shape).Idx} (hn : n = 0) (hm : m = 0)
    (h0 : (x 0).val = n * n0 + 1 * (y 0).val) (h1 : (x 1).val = m * n1 + 1 * (y 1).val) : x = y :=
  Shape.idx_ext₂ (by subst hn; omega) (by subst hm; omega)
theorem idx1_whole {n0 n : ℕ} {x y : (⟨1, ![n0]⟩ : Shape).Idx} (hn : n = 0)
    (h0 : (x 0).val = n * n0 + 1 * (y 0).val) : x = y :=
  funext fun a => Fin.ext (match a with | ⟨0, _⟩ => show (x 0).val = (y 0).val by subst hn; omega)

-- row i₀ lies in the block of B rows numbered i₀ / B; a column below C in the one block of C columns
theorem rows_cover {n m B C i0 i1 : ℕ} (hn : n = i0 / B) (hm : m = 0) (hB : 0 < B) (h1 : i1 < C) :
    (n * B ≤ i0 ∧ i0 < n * B + B) ∧ (m * C ≤ i1 ∧ i1 < m * C + C) := by
  subst hn hm
  exact ⟨⟨Nat.div_mul_le_self _ _, Nat.lt_div_mul_add hB⟩, by omega⟩

theorem mem_blk_unit {sig : RefSig} {κ : Kind} (b : Ref sig κ) (off size : Fin b.ty.shape.rank → ℕ)
    (inb : ∀ a, off a + size a ≤ b.ty.shape.size a) (i : b.ty.shape.Idx)
    (h : ∀ a, off a ≤ (i a).val ∧ (i a).val < off a + size a) : i ∈ ((View.whole b).slice (Rect.unit off size inb)).set := by
  rw [View.set_slice_whole, Rect.mem_set_unit]; exact h

end Cert.KernelIdeal.ValLib

end
-- ==== Proof.KI.Val0.lean ====
import proofs.«421330_j44495861187264_1_alg».proof.Proof.KI.Reg0
import proofs.«421330_j44495861187264_1_alg».proof.Proof.KI.ValLib

noncomputable section

open scoped BigOperators

namespace Cert.KernelIdeal.Val

open Cert Cert.KernelIdeal Cert.KernelIdeal.Gen Cert.KernelIdeal.Fr Cert.KernelIdeal.ValLib
open Idealize.ShloMosaic Idealize.ShloMosaic.TcCoe Idealize.ShloMosaic.ValueIdx Idealize.SL.Sem
open Idealize.ShloMosaic.Pipeline (Dat)

namespace R0

theorem pay1_apply (v0 : Spec.A2 20000 2) (v1 : Spec.A2 2 32) (v4 : Spec.A2 20000 8) (v6 : Spec.A2 8 32) (v10 v14 : Spec.A1 32)
    (p : Fin 20000) (g : Fin 32) : k0_pay1 (F := Ideal) v0 v1 v4 v6 v10 v14 (ix2 p g) = Spec.gates v0 v4 v1 v6 v10 v14 p g := by
  unfold k0_pay1 Spec.gates
  simp only [shapeCast_self]
  rw [addf_apply, addf_apply, addf_apply, matmul_apply, matmul_apply, bias_apply, bias_apply] <;> rfl

theorem pay2_apply (v0 : Spec.A2 20000 2) (v1 : Spec.A2 2 32) (v4 : Spec.A2 20000 8) (v6 : Spec.A2 8 32) (v10 v14 : Spec.A1 32)
    (v23 : Spec.A2 20000 8) (p : Fin 20000) (q : Fin 8) : k0_pay2 (F := Ideal) v0 v1 v4 v6 v10 v14 v23 (ix2 p q)
      = Spec.cellNew (Spec.col 0 (by decide)) (Spec.col 8 (by decide)) (Spec.col 16 (by decide)) v0 v4 v23 v1 v6 v10 v14 p q := by
  unfold k0_pay2 Spec.cellNew Spec.sigm
  simp only [shapeCast_self]
  rw [addf_apply, mulf_apply, mulf_apply, logistic_apply, logistic_apply, tanh_apply,
    slice2_axis1_apply 0 _ _ p q (Spec.col 0 (by decide) q) rfl, slice2_axis1_apply 8 _ _ p q (Spec.col 8 (by decide) q) rfl,
    slice2_axis1_apply 16 _ _ p q (Spec.col 16 (by decide) q) rfl, pay1_apply, pay1_apply, pay1_apply]

theorem pay3_apply (v0 : Spec.A2 20000 2) (v1 : Spec.A2 2 32) (v4 : Spec.A2 20000 8) (v6 : Spec.A2 8 32) (v10 v14 : Spec.A1 32)
    (v23 : Spec.A2 20000 8) (p : Fin 20000) (q : Fin 8) : k0_pay3 (F := Ideal) v0 v1 v4 v6 v10 v14 v23 (ix2 p q)
      = Spec.hidNew (Spec.col 0 (by decide)) (Spec.col 8 (by decide)) (Spec.col 16 (by decide)) (Spec.col 24 (by decide))
          v0 v4 v23 v1 v6 v10 v14 p q := by
  unfold k0_pay3 Spec.hidNew Spec.sigm
  rw [mulf_apply, logistic_apply, tanh_apply, slice2_axis1_apply 24 _ _ p q (Spec.col 24 (by decide) q) rfl, pay1_apply, pay2_apply]

variable (V : (c : Dev nD) → (b : Ref sig .tc) → Buf (Elt Ideal) ((c : Thread nD τ).loc b))

theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ win0_6.index t (0 : Fin 1) = 0
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

-- what the row-local specification needs of point t's blocks
theorem rows (c : Dev nD) (t : Fin cfg0.N) (p : Fin 20000) : ∃ r : Fin 1000000, r.val = t.val * 20000 + p.val
    ∧ (∀ k, (iblk0 V c 0 t : Spec.A2 20000 2) (ix2 p k) = (V c main_arg2 : Spec.A2 1000000 2) (ix2 r k))
    ∧ (∀ k, (iblk0 V c 1 t : Spec.A2 20000 8) (ix2 p k) = (V c main_v10 : Spec.A2 1000000 8) (ix2 r k))
    ∧ ∀ k, (iblk0 V c 2 t : Spec.A2 20000 8) (ix2 p k) = (V c main_v11 : Spec.A2 1000000 8) (ix2 r k) :=
  have ht : t.val < 50 := lt_of_lt_of_eq t.isLt N_0
  have e := idx t
  ⟨⟨t.val * 20000 + p.val, by omega⟩, rfl, fun _ => congrArg (V c main_arg2) (ix2_rows e.1.1 e.1.2 rfl rfl rfl),
    fun _ => congrArg (V c main_v10) (ix2_rows e.2.1.1 e.2.1.2 rfl rfl rfl),
    fun _ => congrArg (V c main_v11) (ix2_rows e.2.2.1.1 e.2.2.1.2 rfl rfl rfl)⟩
theorem blk3_eq (c : Dev nD) (t : Fin cfg0.N) : (iblk0 V c 3 t : Spec.A2 2 32) = V c main_v14 :=
  funext fun _ => congrArg (V c main_v14) (idx2_whole (idx t).2.2.2.1.1 (idx t).2.2.2.1.2 rfl rfl)
theorem blk4_eq (c : Dev nD) (t : Fin cfg0.N) : (iblk0 V c 4 t : Spec.A2 8 32) = V c main_v15 :=
  funext fun _ => congrArg (V c main_v15) (idx2_whole (idx t).2.2.2.2.1.1 (idx t).2.2.2.2.1.2 rfl rfl)
theorem blk5_eq (c : Dev nD) (t : Fin cfg0.N) : (iblk0 V c 5 t : Spec.A1 32) = V c main_arg13 :=
  funext fun _ => congrArg (V c main_arg13) (idx1_whole (idx t).2.2.2.2.2.1 rfl)
theorem blk6_eq (c : Dev nD) (t : Fin cfg0.N) : (iblk0 V c 6 t : Spec.A1 32) = V c main_arg14 :=
  funext fun _ => congrArg (V c main_arg14) (idx1_whole (idx t).2.2.2.2.2.2.1 rfl)

theorem emb7 (t : Fin cfg0.N) (p : Fin 20000) (q : Fin 8) (r : Fin 1000000) (hr : r.val = t.val * 20000 + p.val) :
    ((cfg0.win 7).blk t).view.emb (ix2 p q) = (ix2 r q : S1000000x8.Idx) :=
  ix2_rows (idx t).2.2.2.2.2.2.2.1.1 (idx t).2.2.2.2.2.2.2.1.2 hr rfl rfl
theorem emb8 (t : Fin cfg0.N) (p : Fin 20000) (q : Fin 8) (r : Fin 1000000) (hr : r.val = t.val * 20000 + p.val) :
    ((cfg0.win 8).blk t).view.emb (ix2 p q) = (ix2 r q : S1000000x8.Idx) :=
  ix2_rows (idx t).2.2.2.2.2.2.2.2.1 (idx t).2.2.2.2.2.2.2.2.2 hr rfl rfl

theorem cover7 (i : S1000000x8.Idx) : ∃ t : Fin cfg0.N, (cfg0.win 7).flush t = true ∧ i ∈ ((cfg0.win 7).blk t).view.set :=
  have hlt : (i 0).val / 20000 < cfg0.N := by have := idx2_lt0 i; rw [show cfg0.N = 50 from N_0]; omega
  have e := (idx ⟨_, hlt⟩).2.2.2.2.2.2.2.1
  have h := rows_cover (B := 20000) (C := 8) e.1 e.2 (by decide) (idx2_lt1 i)
  ⟨⟨_, hlt⟩, flush0_7 _, mem_blk_unit main_v21_0 _ _ _ i fun a => match a with | ⟨0, _⟩ => h.1 | ⟨1, _⟩ => h.2⟩
theorem cover8 (i : S1000000x8.Idx) : ∃ t : Fin cfg0.N, (cfg0.win 8).flush t = true ∧ i ∈ ((cfg0.win 8).blk t).view.set :=
  have hlt : (i 0).val / 20000 < cfg0.N := by have := idx2_lt0 i; rw [show cfg0.N = 50 from N_0]; omega
  have e := (idx ⟨_, hlt⟩).2.2.2.2.2.2.2.2
  have h := rows_cover (B := 20000) (C := 8) e.1 e.2 (by decide) (idx2_lt1 i)
  ⟨⟨_, hlt⟩, flush0_8 _, mem_blk_unit main_v21_1 _ _ _ i fun a => match a with | ⟨0, _⟩ => h.1 | ⟨1, _⟩ => h.2⟩

end R0

variable (V : (c : Dev nD) → (b : Ref sig .tc) → Buf (Elt Ideal) ((c : Thread nD τ).loc b))

-- grid point t computes block t of the array the specification names, and the fifty blocks cover that array
theorem final0_7 (c : Dev nD) : (dat0 (F := Ideal) V c).arrAt 7 cfg0.N = Spec.edgeH (V c main_arg2) (V c main_v10) (V c main_v11) (V c main_v14) (V c main_v15) (V c main_arg13) (V c main_arg14) := by
  refine (dat0 (F := Ideal) V c).arrAt_eq_of_cover 7 _ (fun t _ => ?_) R0.cover7
  show (cfg0.win 7).cut (grid0.coords t) ((dat0 V c).after 7 t) = _
  rw [after0_7]
  unfold out0_7
  rw [canon2]
  simp only [ld2, ld1]
  refine block_ext fun p q => (R0.pay3_apply _ _ _ _ _ _ _ p q).trans ?_
  obtain ⟨r, hr, h0, h1, h2⟩ := R0.rows V c t p
  show _ = Spec.edgeH _ _ _ _ _ _ _ (((cfg0.win 7).blk t).view.emb (ix2 p q))
  rw [R0.blk3_eq V c t, R0.blk4_eq V c t, R0.blk5_eq V c t, R0.blk6_eq V c t, R0.emb7 t p q r hr]
  exact hidNew_rows _ _ _ _ _ _ _ _ h0 h1 h2 q

theorem final0_8 (c : Dev nD) : (dat0 (F := Ideal) V c).arrAt 8 cfg0.N = Spec.edgeC (V c main_arg2) (V c main_v10) (V c main_v11) (V c main_v14) (V c main_v15) (V c main_arg13) (V c main_arg14) := by
  refine (dat0 (F := Ideal) V c).arrAt_eq_of_cover 8 _ (fun t _ => ?_) R0.cover8
  show (cfg0.win 8).cut (grid0.coords t) ((dat0 V c).after 8 t) = _
  rw [after0_8]
  unfold out0_8
  rw [canon2]
  simp only [ld2, ld1]
  refine block_ext fun p q => (R0.pay2_apply _ _ _ _ _ _ _ p q).trans ?_
  obtain ⟨r, hr, h0, h1, h2⟩ := R0.rows V c t p
  show _ = Spec.edgeC _ _ _ _ _ _ _ (((cfg0.win 8).blk t).view.emb (ix2 p q))
  rw [R0.blk3_eq V c t, R0.blk4_eq V c t, R0.blk5_eq V c t, R0.blk6_eq V c t, R0.emb8 t p q r hr]
  exact cellNew_rows _ _ _ _ _ _ _ h0 h1 h2 q

end Cert.KernelIdeal.Val
end
-- ==== Proof.KI.Val1.lean ====
import proofs.«421330_j44495861187264_1_alg».proof.Proof.KI.Reg1
import proofs.«421330_j44495861187264_1_alg».proof.Proof.KI.ValLib

noncomputable section

open scoped BigOperators

namespace Cert.KernelIdeal.Val

open Cert Cert.KernelIdeal Cert.KernelIdeal.Gen Cert.KernelIdeal.Fr Cert.KernelIdeal.ValLib
open Idealize.ShloMosaic Idealize.ShloMosaic.TcCoe Idealize.ShloMosaic.ValueIdx Idealize.SL.Sem
open Idealize.ShloMosaic.Pipeline (Dat)

namespace R1

theorem pay1_apply (v0 : Spec.A2 10000 5) (v1 : Spec.A2 5 80) (v4 : Spec.A2 10000 20) (v6 : Spec.A2 20 80) (v10 v14 : Spec.A1 80)
    (p : Fin 10000) (g : Fin 80) : k1_pay1 (F := Ideal) v0 v1 v4 v6 v10 v14 (ix2 p g) = Spec.gates v0 v4 v1 v6 v10 v14 p g := by
  unfold k1_pay1 Spec.gates
  simp only [shapeCast_self]
  rw [addf_apply, addf_apply, addf_apply, matmul_apply, matmul_apply, bias_apply, bias_apply] <;> rfl

theorem pay2_apply (v0 : Spec.A2 10000 5) (v1 : Spec.A2 5 80) (v4 : Spec.A2 10000 20) (v6 : Spec.A2 20 80) (v10 v14 : Spec.A1 80)
    (v23 : Spec.A2 10000 20) (p : Fin 10000) (q : Fin 20) : k1_pay2 (F := Ideal) v0 v1 v4 v6 v10 v14 v23 (ix2 p q)
      = Spec.cellNew (Spec.col 0 (by decide)) (Spec.col 20 (by decide)) (Spec.col 40 (by decide)) v0 v4 v23 v1 v6 v10 v14 p q := by
  unfold k1_pay2 Spec.cellNew Spec.sigm
  simp only [shapeCast_self]
  rw [addf_apply, mulf_apply, mulf_apply, logistic_apply, logistic_apply, tanh_apply,
    slice2_axis1_apply 0 _ _ p q (Spec.col 0 (by decide) q) rfl, slice2_axis1_apply 20 _ _ p q (Spec.col 20 (by decide) q) rfl,
    slice2_axis1_apply 40 _ _ p q (Spec.col 40 (by decide) q) rfl, pay1_apply, pay1_apply, pay1_apply]

theorem pay3_apply (v0 : Spec.A2 10000 5) (v1 : Spec.A2 5 80) (v4 : Spec.A2 10000 20) (v6 : Spec.A2 20 80) (v10 v14 : Spec.A1 80)
    (v23 : Spec.A2 10000 20) (p : Fin 10000) (q : Fin 20) : k1_pay3 (F := Ideal) v0 v1 v4 v6 v10 v14 v23 (ix2 p q)
      = Spec.hidNew (Spec.col 0 (by decide)) (Spec.col 20 (by decide)) (Spec.col 40 (by decide)) (Spec.col 60 (by decide))
          v0 v4 v23 v1 v6 v10 v14 p q := by
  unfold k1_pay3 Spec.hidNew Spec.sigm
  rw [mulf_apply, logistic_apply, tanh_apply, slice2_axis1_apply 60 _ _ p q (Spec.col 60 (by decide) q) rfl, pay1_apply, pay2_apply]

variable (V : (c : Dev nD) → (b : Ref sig .tc) → Buf (Elt Ideal) ((c : Thread nD τ).loc b))

theorem idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ win1_5.index t (0 : Fin 1) = 0
    ∧ win1_6.index t (0 : Fin 1) = 0
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

-- what the row-local specification needs of point t's blocks
theorem rows (c : Dev nD) (t : Fin cfg1.N) (p : Fin 10000) : ∃ r : Fin 100000, r.val = t.val * 10000 + p.val
    ∧ (∀ k, (iblk1 V c 0 t : Spec.A2 10000 5) (ix2 p k) = (V c main_v3 : Spec.A2 100000 5) (ix2 r k))
    ∧ (∀ k, (iblk1 V c 1 t : Spec.A2 10000 20) (ix2 p k) = (V c main_v8 : Spec.A2 100000 20) (ix2 r k))
    ∧ ∀ k, (iblk1 V c 2 t : Spec.A2 10000 20) (ix2 p k) = (V c main_v9 : Spec.A2 100000 20) (ix2 r k) :=
  have ht : t.val < 10 := lt_of_lt_of_eq t.isLt N_1
  have e := idx t
  ⟨⟨t.val * 10000 + p.val, by omega⟩, rfl, fun _ => congrArg (V c main_v3) (ix2_rows e.1.1 e.1.2 rfl rfl rfl),
    fun _ => congrArg (V c main_v8) (ix2_rows e.2.1.1 e.2.1.2 rfl rfl rfl),
    fun _ => congrArg (V c main_v9) (ix2_rows e.2.2.1.1 e.2.2.1.2 rfl rfl rfl)⟩
theorem blk3_eq (c : Dev nD) (t : Fin cfg1.N) : (iblk1 V c 3 t : Spec.A2 5 80) = V c main_v12 :=
  funext fun _ => congrArg (V c main_v12) (idx2_whole (idx t).2.2.2.1.1 (idx t).2.2.2.1.2 rfl rfl)
theorem blk4_eq (c : Dev nD) (t : Fin cfg1.N) : (iblk1 V c 4 t : Spec.A2 20 80) = V c main_v13 :=
  funext fun _ => congrArg (V c main_v13) (idx2_whole (idx t).2.2.2.2.1.1 (idx t).2.2.2.2.1.2 rfl rfl)
theorem blk5_eq (c : Dev nD) (t : Fin cfg1.N) : (iblk1 V c 5 t : Spec.A1 80) = V c main_arg9 :=
  funext fun _ => congrArg (V c main_arg9) (idx1_whole (idx t).2.2.2.2.2.1 rfl)
theorem blk6_eq (c : Dev nD) (t : Fin cfg1.N) : (iblk1 V c 6 t : Spec.A1 80) = V c main_arg10 :=
  funext fun _ => congrArg (V c main_arg10) (idx1_whole (idx t).2.2.2.2.2.2.1 rfl)

theorem emb7 (t : Fin cfg1.N) (p : Fin 10000) (q : Fin 20) (r : Fin 100000) (hr : r.val = t.val * 10000 + p.val) :
    ((cfg1.win 7).blk t).view.emb (ix2 p q) = (ix2 r q : S100000x20.Idx) :=
  ix2_rows (idx t).2.2.2.2.2.2.2.1.1 (idx t).2.2.2.2.2.2.2.1.2 hr rfl rfl
theorem emb8 (t : Fin cfg1.N) (p : Fin 10000) (q : Fin 20) (r : Fin 100000) (hr : r.val = t.val * 10000 + p.val) :
    ((cfg1.win 8).blk t).view.emb (ix2 p q) = (ix2 r q : S100000x20.Idx) :=
  ix2_rows (idx t).2.2.2.2.2.2.2.2.1 (idx t).2.2.2.2.2.2.2.2.2 hr rfl rfl

theorem cover7 (i : S100000x20.Idx) : ∃ t : Fin cfg1.N, (cfg1.win 7).flush t = true ∧ i ∈ ((cfg1.win 7).blk t).view.set :=
  have hlt : (i 0).val / 10000 < cfg1.N := by have := idx2_lt0 i; rw [show cfg1.N = 10 from N_1]; omega
  have e := (idx ⟨_, hlt⟩).2.2.2.2.2.2.2.1
  have h := rows_cover (B := 10000) (C := 20) e.1 e.2 (by decide) (idx2_lt1 i)
  ⟨⟨_, hlt⟩, flush1_7 _, mem_blk_unit main_v25_0 _ _ _ i fun a => match a with | ⟨0, _⟩ => h.1 | ⟨1, _⟩ => h.2⟩
theorem cover8 (i : S100000x20.Idx) : ∃ t : Fin cfg1.N, (cfg1.win 8).flush t = true ∧ i ∈ ((cfg1.win 8).blk t).view.set :=
  have hlt : (i 0).val / 10000 < cfg1.N := by have := idx2_lt0 i; rw [show cfg1.N = 10 from N_1]; omega
  have e := (idx ⟨_, hlt⟩).2.2.2.2.2.2.2.2
  have h := rows_cover (B := 10000) (C := 20) e.1 e.2 (by decide) (idx2_lt1 i)
  ⟨⟨_, hlt⟩, flush1_8 _, mem_blk_unit main_v25_1 _ _ _ i fun a => match a with | ⟨0, _⟩ => h.1 | ⟨1, _⟩ => h.2⟩

end R1

variable (V : (c : Dev nD) → (b : Ref sig .tc) → Buf (Elt Ideal) ((c : Thread nD τ).loc b))

-- grid point t computes block t of the array the specification names, and the ten blocks cover that array
theorem final1_7 (c : Dev nD) : (dat1 (F := Ideal) V c).arrAt 7 cfg1.N = Spec.nodeH (V c main_v3) (V c main_v8) (V c main_v9) (V c main_v12) (V c main_v13) (V c main_arg9) (V c main_arg10) := by
  refine (dat1 (F := Ideal) V c).arrAt_eq_of_cover 7 _ (fun t _ => ?_) R1.cover7
  show (cfg1.win 7).cut (grid1.coords t) ((dat1 V c).after 7 t) = _
  rw [after1_7]
  unfold out1_7
  rw [canon2]
  simp only [ld2, ld1]
  refine block_ext fun p q => (R1.pay3_apply _ _ _ _ _ _ _ p q).trans ?_
  obtain ⟨r, hr, h0, h1, h2⟩ := R1.rows V c t p
  show _ = Spec.nodeH _ _ _ _ _ _ _ (((cfg1.win 7).blk t).view.emb (ix2 p q))
  rw [R1.blk3_eq V c t, R1.blk4_eq V c t, R1.blk5_eq V c t, R1.blk6_eq V c t, R1.emb7 t p q r hr]
  exact hidNew_rows _ _ _ _ _ _ _ _ h0 h1 h2 q

theorem final1_8 (c : Dev nD) : (dat1 (F := Ideal) V c).arrAt 8 cfg1.N = Spec.nodeC (V c main_v3) (V c main_v8) (V c main_v9) (V c main_v12) (V c main_v13) (V c main_arg9) (V c main_arg10) := by
  refine (dat1 (F := Ideal) V c).arrAt_eq_of_cover 8 _ (fun t _ => ?_) R1.cover8
  show (cfg1.win 8).cut (grid1.coords t) ((dat1 V c).after 8 t) = _
  rw [after1_8]
  unfold out1_8
  rw [canon2]
  simp only [ld2, ld1]
  refine block_ext fun p q => (R1.pay2_apply _ _ _ _ _ _ _ p q).trans ?_
  obtain ⟨r, hr, h0, h1, h2⟩ := R1.rows V c t p
  show _ = Spec.nodeC _ _ _ _ _ _ _ (((cfg1.win 8).blk t).view.emb (ix2 p q))
  rw [R1.blk3_eq V c t, R1.blk4_eq V c t, R1.blk5_eq V c t, R1.blk6_eq V c t, R1.emb8 t p q r hr]
  exact cellNew_rows _ _ _ _ _ _ _ h0 h1 h2 q

end Cert.KernelIdeal.Val
end
-- ==== Proof.KI.Val2.lean ====
import proofs.«421330_j44495861187264_1_alg».proof.Proof.KI.Reg2
import proofs.«421330_j44495861187264_1_alg».proof.Proof.KI.ValLib

noncomputable section

open scoped BigOperators

namespace Cert.KernelIdeal.Val2

open Cert Cert.KernelIdeal Cert.KernelIdeal.Gen Cert.KernelIdeal.Fr Cert.KernelIdeal.ValLib
open Idealize.ShloMosaic Idealize.ShloMosaic.TcCoe Idealize.ShloMosaic.ValueIdx Idealize.SL.Sem
open Idealize.ShloMosaic.Pipeline (Dat)

theorem pay_apply (x0 : Spec.A2 20000 58) (x1 : Spec.A2 58 64) (x2 : Spec.A1 64) (x3 : Spec.A2 64 32) (x4 : Spec.A1 32)
    (p : Fin 20000) (q : Fin 32) :
    k2_pay1 (F := Ideal) x0 x1 x2 x3 x4 (ix2 p q) = Spec.affine (Spec.layer (fun i a => x0 (ix2 i a)) x1 x2) x3 x4 p q := by
  unfold k2_pay1
  simp only [shapeCast_self]
  exact affine_apply rfl _ _ (fun p a => layer_apply _ _ _ x1 x2 p a (affine_apply rfl _ _ (fun _ _ => rfl) x1 x2 _ _ p a)) x3 x4 _ _ p q

theorem idx : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ win2_2.index t (0 : Fin 1) = 0
    ∧ (win2_3.index t (0 : Fin 2) = 0 ∧ win2_3.index t (1 : Fin 2) = 0)
    ∧ win2_4.index t (0 : Fin 1) = 0
    ∧ (win2_5.index t (0 : Fin 2) = t.val ∧ win2_5.index t (1 : Fin 2) = 0) :=
  (by decide +kernel : ∀ t : Fin grid2.N, _)

theorem emb5 (t : Fin cfg2.N) (p : Fin 20000) (q : Fin 32) (r : Fin 1000000) (hr : r.val = t.val * 20000 + p.val) :
    ((cfg2.win 5).blk t).view.emb (ix2 p q) = (ix2 r q : S1000000x32.Idx) :=
  ix2_rows (idx t).2.2.2.2.2.1 (idx t).2.2.2.2.2.2 hr rfl rfl

theorem cover5 (i : S1000000x32.Idx) : ∃ t : Fin cfg2.N, (cfg2.win 5).flush t = true ∧ i ∈ ((cfg2.win 5).blk t).view.set :=
  have hlt : (i 0).val / 20000 < cfg2.N := by have := idx2_lt0 i; rw [show cfg2.N = 50 from N_2]; omega
  have e := (idx ⟨_, hlt⟩).2.2.2.2.2
  have h := rows_cover (B := 20000) (C := 32) e.1 e.2 (by decide) (idx2_lt1 i)
  ⟨⟨_, hlt⟩, flush2_5 _, mem_blk_unit main_v42 _ _ _ i fun a => match a with | ⟨0, _⟩ => h.1 | ⟨1, _⟩ => h.2⟩

variable (V : (c : Dev nD) → (b : Ref sig .tc) → Buf (Elt Ideal) ((c : Thread nD τ).loc b))

theorem blk1_eq (c : Dev nD) (t : Fin cfg2.N) : (iblk2 V c 1 t : Spec.A2 58 64) = V c main_v16 :=
  funext fun _ => congrArg (V c main_v16) (idx2_whole (idx t).2.1.1 (idx t).2.1.2 rfl rfl)
theorem blk2_eq (c : Dev nD) (t : Fin cfg2.N) : (iblk2 V c 2 t : Spec.A1 64) = V c main_arg16 :=
  funext fun _ => congrArg (V c main_arg16) (idx1_whole (idx t).2.2.1 rfl)
theorem blk3_eq (c : Dev nD) (t : Fin cfg2.N) : (iblk2 V c 3 t : Spec.A2 64 32) = V c main_v17 :=
  funext fun _ => congrArg (V c main_v17) (idx2_whole (idx t).2.2.2.1.1 (idx t).2.2.2.1.2 rfl rfl)
theorem blk4_eq (c : Dev nD) (t : Fin cfg2.N) : (iblk2 V c 4 t : Spec.A1 32) = V c main_arg18 :=
  funext fun _ => congrArg (V c main_arg18) (idx1_whole (idx t).2.2.2.2.1 rfl)

-- grid point t computes block t of the array the specification names, and the fifty blocks cover that array
theorem final2_5 (c : Dev nD) : (dat2 (F := Ideal) V c).arrAt 5 cfg2.N
    = Spec.edgeMlp (V c main_v41) (V c main_v16) (V c main_arg16) (V c main_v17) (V c main_arg18) := by
  refine (dat2 (F := Ideal) V c).arrAt_eq_of_cover 5 _ (fun t _ => ?_) cover5
  show (cfg2.win 5).cut (grid2.coords t) ((dat2 V c).after 5 t) = _
  rw [after2_5]
  unfold out2_5
  rw [canon2]
  simp only [ld2, ld1]
  refine block_ext fun p q => (pay_apply _ _ _ _ _ p q).trans ?_
  have ht : t.val < 50 := lt_of_lt_of_eq t.isLt N_2
  obtain ⟨r, hr⟩ : ∃ r : Fin 1000000, r.val = t.val * 20000 + p.val := ⟨⟨_, by omega⟩, rfl⟩
  show _ = Spec.edgeMlp _ _ _ _ _ (((cfg2.win 5).blk t).view.emb (ix2 p q))
  rw [blk1_eq V c t, blk2_eq V c t, blk3_eq V c t, blk4_eq V c t, emb5 t p q r hr]
  exact affine_congr _ _ (fun a => layer_congr _ _
    (fun _ => congrArg (V c main_v41) (ix2_rows (idx t).1.1 (idx t).1.2 hr rfl rfl)) a) q

end Cert.KernelIdeal.Val2

end
-- ==== Proof.KI.Val3.lean ====
import proofs.«421330_j44495861187264_1_alg».proof.Proof.KI.Reg3
import proofs.«421330_j44495861187264_1_alg».proof.Proof.KI.ValLib

noncomputable section

open scoped BigOperators

namespace Cert.KernelIdeal.Val

open Cert Cert.KernelIdeal Cert.KernelIdeal.Gen Cert.KernelIdeal.Fr Cert.KernelIdeal.ValLib
open Idealize.ShloMosaic Idealize.ShloMosaic.TcCoe Idealize.ShloMosaic.ValueIdx Idealize.SL.Sem
open Idealize.ShloMosaic.Pipeline (Dat)

namespace R3

theorem maskCol_apply {m n : Nat} (x : Spec.A2 m 1) (hb : (⟨2, ![m, 1]⟩ : Shape).Broadcasts ⟨2, ![m, n]⟩) (hm : m ≠ 1)
    (p : Fin m) (q : Fin n) : broadcastTo ⟨2, ![m, n]⟩ x hb (ix2 p q) = x (ix2 p 0) :=
  broadcastTo_apply x hb (ix2 p q) (ix2 p 0) fun ax => match ax with
    | ⟨0, _⟩ => show p.val = if m = 1 then 0 else p.val by rw [if_neg hm]
    | ⟨1, _⟩ => rfl

-- the two pieces side by side are the specification's concatenated row
theorem xcat_apply {R : Nat} (x0 : Spec.A2 R 28) (x1 : Spec.A2 R 32)
    (h : Shape.Concatenates [(⟨2, ![R, 28]⟩ : Shape), ⟨2, ![R, 32]⟩] ⟨2, ![R, 60]⟩ 1) (p : Fin R) (k : Fin 60) :
    concatenate (⟨2, ![R, 60]⟩ : Shape) 1 [⟨⟨2, ![R, 28]⟩, x0⟩, ⟨⟨2, ![R, 32]⟩, x1⟩] h (ix2 p k) = Spec.xagg x0 x1 p k := by
  unfold Spec.xagg
  split
  · rename_i hk
    exact concatenate_pair_apply_left 1 x0 x1 h (ix2 p k) rfl (ix2 p ⟨k.val, hk⟩) fun b => match b with
      | ⟨0, _⟩ => rfl
      | ⟨1, _⟩ => rfl
  · refine concatenate_pair_apply_right 1 x0 x1 h (ix2 p k) rfl rfl (ix2 p ⟨k.val - 28, by omega⟩) (fun b hb => ?_)
      (show k.val - 28 + 28 = k.val by omega)
    match b with
    | ⟨0, _⟩ => rfl
    | ⟨1, _⟩ => exact absurd rfl hb

theorem pay2_apply (x0 : Spec.A2 10000 28) (x1 : Spec.A2 10000 32) (x3 : Spec.A2 60 64) (x4 : Spec.A1 64) (x5 : Spec.A2 64 64)
    (x6 : Spec.A1 64) (x7 : Spec.A2 64 4) (x8 : Spec.A1 4) (p : Fin 10000) (q : Fin 4) :
    k3_pay2 (F := Ideal) x0 x1 x3 x4 x5 x6 x7 x8 (ix2 p q)
      = Spec.affine (Spec.layer (Spec.layer (Spec.xagg x0 x1) x3 x4) x5 x6) x7 x8 p q := by
  unfold k3_pay2
  simp only [shapeCast_self]
  refine affine_apply rfl _ _ (fun p a => layer_apply _ _ _ x5 x6 p a (affine_apply rfl _ _ (fun p a => layer_apply _ _ _ x3 x4 p a
    (affine_apply rfl _ (Spec.xagg x0 x1) (fun p a => ?_) x3 x4 _ _ p a)) x5 x6 _ _ p a)) x7 x8 _ _ p q
  rw [shapeCast_self x0, shapeCast_self x1]
  exact xcat_apply x0 x1 _ p a

theorem pay1_apply (y : Spec.A2 10000 4) (x2 : Spec.A2 10000 1) (p : Fin 10000) (q : Fin 4) :
    k3_pay1 (F := Ideal) y x2 (ix2 p q) = y (ix2 p q) * x2 (ix2 p 0) := by
  unfold k3_pay1
  simp only [shapeCast_self]
  rw [mulf_apply, maskCol_apply x2 _ (by decide) p q]

theorem xagg_congr {R R' : Nat} {xc : Spec.A2 R 28} {xc' : Spec.A2 R' 28} {agg : Spec.A2 R 32} {agg' : Spec.A2 R' 32} {i : Fin R}
    {i' : Fin R'} (h0 : ∀ k, xc (ix2 i k) = xc' (ix2 i' k)) (h1 : ∀ k, agg (ix2 i k) = agg' (ix2 i' k)) (k : Fin 60) :
    Spec.xagg xc agg i k = Spec.xagg xc' agg' i' k := by
  unfold Spec.xagg
  split
  · exact h0 _
  · exact h1 _

theorem idx : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ win3_4.index t (0 : Fin 1) = 0
    ∧ (win3_5.index t (0 : Fin 2) = 0 ∧ win3_5.index t (1 : Fin 2) = 0)
    ∧ win3_6.index t (0 : Fin 1) = 0
    ∧ (win3_7.index t (0 : Fin 2) = 0 ∧ win3_7.index t (1 : Fin 2) = 0)
    ∧ win3_8.index t (0 : Fin 1) = 0
    ∧ (win3_9.index t (0 : Fin 2) = t.val ∧ win3_9.index t (1 : Fin 2) = 0) :=
  (by decide +kernel : ∀ t : Fin grid3.N, _)

theorem emb9 (t : Fin cfg3.N) (p : Fin 10000) (q : Fin 4) (r : Fin 100000) (hr : r.val = t.val * 10000 + p.val) :
    ((cfg3.win 9).blk t).view.emb (ix2 p q) = (ix2 r q : S100000x4.Idx) :=
  ix2_rows (idx t).2.2.2.2.2.2.2.2.2.1 (idx t).2.2.2.2.2.2.2.2.2.2 hr rfl rfl

theorem cover9 (i : S100000x4.Idx) : ∃ t : Fin cfg3.N, (cfg3.win 9).flush t = true ∧ i ∈ ((cfg3.win 9).blk t).view.set :=
  have hlt : (i 0).val / 10000 < cfg3.N := by have := idx2_lt0 i; rw [show cfg3.N = 10 from N_3]; omega
  have e := (idx ⟨_, hlt⟩).2.2.2.2.2.2.2.2.2
  have h := rows_cover (B := 10000) (C := 4) e.1 e.2 (by decide) (idx2_lt1 i)
  ⟨⟨_, hlt⟩, flush3_9 _, mem_blk_unit main_v62 _ _ _ i fun a => match a with | ⟨0, _⟩ => h.1 | ⟨1, _⟩ => h.2⟩

variable (V : (c : Dev nD) → (b : Ref sig .tc) → Buf (Elt Ideal) ((c : Thread nD τ).loc b))

-- what the row-local specification needs of point t's blocks
theorem rows (c : Dev nD) (t : Fin cfg3.N) (p : Fin 10000) : ∃ r : Fin 100000, r.val = t.val * 10000 + p.val
    ∧ (∀ k, (iblk3 V c 0 t : Spec.A2 10000 28) (ix2 p k) = (V c main_v26 : Spec.A2 100000 28) (ix2 r k))
    ∧ (∀ k, (iblk3 V c 1 t : Spec.A2 10000 32) (ix2 p k) = (V c main_v45 : Spec.A2 100000 32) (ix2 r k))
    ∧ ∀ k, (iblk3 V c 2 t : Spec.A2 10000 1) (ix2 p k) = (V c main_v61 : Spec.A2 100000 1) (ix2 r k) :=
  have ht : t.val < 10 := lt_of_lt_of_eq t.isLt N_3
  have e := idx t
  ⟨⟨t.val * 10000 + p.val, by omega⟩, rfl, fun _ => congrArg (V c main_v26) (ix2_rows e.1.1 e.1.2 rfl rfl rfl),
    fun _ => congrArg (V c main_v45) (ix2_rows e.2.1.1 e.2.1.2 rfl rfl rfl),
    fun _ => congrArg (V c main_v61) (ix2_rows e.2.2.1.1 e.2.2.1.2 rfl rfl rfl)⟩
theorem blk3_eq (c : Dev nD) (t : Fin cfg3.N) : (iblk3 V c 3 t : Spec.A2 60 64) = V c main_v18 :=
  funext fun _ => congrArg (V c main_v18) (idx2_whole (idx t).2.2.2.1.1 (idx t).2.2.2.1.2 rfl rfl)
theorem blk4_eq (c : Dev nD) (t : Fin cfg3.N) : (iblk3 V c 4 t : Spec.A1 64) = V c main_arg20 :=
  funext fun _ => congrArg (V c main_arg20) (idx1_whole (idx t).2.2.2.2.1 rfl)
theorem blk5_eq (c : Dev nD) (t : Fin cfg3.N) : (iblk3 V c 5 t : Spec.A2 64 64) = V c main_v19 :=
  funext fun _ => congrArg (V c main_v19) (idx2_whole (idx t).2.2.2.2.2.1.1 (idx t).2.2.2.2.2.1.2 rfl rfl)
theorem blk6_eq (c : Dev nD) (t : Fin cfg3.N) : (iblk3 V c 6 t : Spec.A1 64) = V c main_arg22 :=
  funext fun _ => congrArg (V c main_arg22) (idx1_whole (idx t).2.2.2.2.2.2.1 rfl)
theorem blk7_eq (c : Dev nD) (t : Fin cfg3.N) : (iblk3 V c 7 t : Spec.A2 64 4) = V c main_v20 :=
  funext fun _ => congrArg (V c main_v20) (idx2_whole (idx t).2.2.2.2.2.2.2.1.1 (idx t).2.2.2.2.2.2.2.1.2 rfl rfl)
theorem blk8_eq (c : Dev nD) (t : Fin cfg3.N) : (iblk3 V c 8 t : Spec.A1 4) = V c main_arg24 :=
  funext fun _ => congrArg (V c main_arg24) (idx1_whole (idx t).2.2.2.2.2.2.2.2.1 rfl)

end R3

variable (V : (c : Dev nD) → (b : Ref sig .tc) → Buf (Elt Ideal) ((c : Thread nD τ).loc b))

-- grid point t computes block t of the array the specification names, and the ten blocks cover that array
theorem final3_9 (c : Dev nD) : (dat3 (F := Ideal) V c).arrAt 9 cfg3.N
    = Spec.nodeMasked (V c main_v26) (V c main_v45) (V c main_v61) (V c main_v18) (V c main_arg20) (V c main_v19) (V c main_arg22) (V c main_v20) (V c main_arg24) := by
  refine (dat3 (F := Ideal) V c).arrAt_eq_of_cover 9 _ (fun t _ => ?_) R3.cover9
  show (cfg3.win 9).cut (grid3.coords t) ((dat3 V c).after 9 t) = _
  rw [after3_9]
  unfold out3_9
  rw [canon2]
  simp only [ld2, ld1]
  refine block_ext fun p q => (R3.pay1_apply _ _ p q).trans ?_
  obtain ⟨r, hr, h0, h1, h2⟩ := R3.rows V c t p
  show _ = Spec.nodeMasked _ _ _ _ _ _ _ _ _ (((cfg3.win 9).blk t).view.emb (ix2 p q))
  rw [R3.pay2_apply, R3.blk3_eq V c t, R3.blk4_eq V c t, R3.blk5_eq V c t, R3.blk6_eq V c t, R3.blk7_eq V c t, R3.blk8_eq V c t,
    R3.emb9 t p q r hr, h2 0]
  exact congrArg (· * _) (affine_congr _ _ (fun a => layer_congr _ _ (fun a => layer_congr _ _ (R3.xagg_congr h0 h1) a) a) q)

end Cert.KernelIdeal.Val

end
-- ==== Proof.Glue.lean ====
import proofs.«421330_j44495861187264_1_alg».proof.KernelIdeal
import proofs.«421330_j44495861187264_1_alg».proof.Proof.Gen.KernelIdeal
import proofs.«421330_j44495861187264_1_alg».proof.Proof.Spec

noncomputable section

namespace Cert.KernelIdeal.Glue

open Cert.KernelIdeal Cert.KernelIdeal.Facts₀ Cert.KernelIdeal.Facts Idealize.ShloMosaic

-- The arrays the step is given, in the order of the program's arguments.
structure Args where
  a0 : FVec Ideal S100000x10 .f32
  a1 : IVec S2x1000000 32
  a2 : FVec Ideal S1000000x2 .f32
  a3 : FVec Ideal S1x100000x20 .f32
  a4 : FVec Ideal S1x100000x20 .f32
  a5 : FVec Ideal S1x1000000x8 .f32
  a6 : FVec Ideal S1x1000000x8 .f32
  a7 : FVec Ideal S80x5 .f32
  a8 : FVec Ideal S80x20 .f32
  a9 : FVec Ideal S80 .f32
  a10 : FVec Ideal S80 .f32
  a11 : FVec Ideal S32x2 .f32
  a12 : FVec Ideal S32x8 .f32
  a13 : FVec Ideal S32 .f32
  a14 : FVec Ideal S32 .f32
  a15 : FVec Ideal S64x58 .f32
  a16 : FVec Ideal S64 .f32
  a17 : FVec Ideal S32x64 .f32
  a18 : FVec Ideal S32 .f32
  a19 : FVec Ideal S64x60 .f32
  a20 : FVec Ideal S64 .f32
  a21 : FVec Ideal S64x64 .f32
  a22 : FVec Ideal S64 .f32
  a23 : FVec Ideal S4x64 .f32
  a24 : FVec Ideal S4 .f32

variable (a : Args)

-- For each node, which of its five type indicators differ from zero.
def tyNe : IVec S100000x5 1 :=
  cmpf .une (extractStridedSlice S100000x5 ![0, 5] a.a0 slices_S100000x10_S100000x5_0_5)
    (broadcastInDim S100000x5 ![] bcast_S_S100000x5 (constant (F := Ideal) S_ .f32 0x00000000#32))
def xf : FVec Ideal S100000x5 .f32 := extractStridedSlice S100000x5 ![0, 0] a.a0 slices_S100000x10_S100000x5_0_0
-- The source and the target node of every edge.
def rowI : IVec S1000000 32 :=
  shapeCast S1000000 (extractStridedSlice S1x1000000 ![0, 0] a.a1 slices_S2x1000000_S1x1000000_0_0) shapeCasts_S1x1000000_S1000000
def colI : IVec S1000000 32 :=
  shapeCast S1000000 (extractStridedSlice S1x1000000 ![1, 0] a.a1 slices_S2x1000000_S1x1000000_1_0) shapeCasts_S1x1000000_S1000000
def hN0 : FVec Ideal S100000x20 .f32 := shapeCast S100000x20 a.a3 shapeCasts_S1x100000x20_S100000x20
def cN0 : FVec Ideal S100000x20 .f32 := shapeCast S100000x20 a.a4 shapeCasts_S1x100000x20_S100000x20
def hE0 : FVec Ideal S1000000x8 .f32 := shapeCast S1000000x8 a.a5 shapeCasts_S1x1000000x8_S1000000x8
def cE0 : FVec Ideal S1000000x8 .f32 := shapeCast S1000000x8 a.a6 shapeCasts_S1x1000000x8_S1000000x8
def wN : FVec Ideal S5x80 .f32 := transpose S5x80 [1, 0] a.a7 transposes_S80x5_S5x80_1_0
def uN : FVec Ideal S20x80 .f32 := transpose S20x80 [1, 0] a.a8 transposes_S80x20_S20x80_1_0
def wE : FVec Ideal S2x32 .f32 := transpose S2x32 [1, 0] a.a11 transposes_S32x2_S2x32_1_0
def uE : FVec Ideal S8x32 .f32 := transpose S8x32 [1, 0] a.a12 transposes_S32x8_S8x32_1_0
def w1e : FVec Ideal S58x64 .f32 := transpose S58x64 [1, 0] a.a15 transposes_S64x58_S58x64_1_0
def w2e : FVec Ideal S64x32 .f32 := transpose S64x32 [1, 0] a.a17 transposes_S32x64_S64x32_1_0
def w1n : FVec Ideal S60x64 .f32 := transpose S60x64 [1, 0] a.a19 transposes_S64x60_S60x64_1_0
def w2n : FVec Ideal S64x64 .f32 := transpose S64x64 [1, 0] a.a21 transposes_S64x64_S64x64_1_0
def w3n : FVec Ideal S64x4 .f32 := transpose S64x4 [1, 0] a.a23 transposes_S4x64_S64x4_1_0

def he : FVec Ideal S1000000x8 .f32 := Spec.edgeH a.a2 (hE0 a) (cE0 a) (wE a) (uE a) a.a13 a.a14
def ce : FVec Ideal S1000000x8 .f32 := Spec.edgeC a.a2 (hE0 a) (cE0 a) (wE a) (uE a) a.a13 a.a14
-- For each node, the sum of the new hidden states of the edges leaving it.
def enc : FVec Ideal S100000x8 .f32 :=
  Host.scatterAdd scatter_S100000x8_S1000000x1_S1000000x8_1_0_0_1
    (broadcastInDim S100000x8 ![] bcast_S_S100000x8 (constant (F := Ideal) S_ .f32 0x00000000#32))
    (broadcastInDim S1000000x1 ![0] bcast_S1000000_S1000000x1_0 (rowI a)) (he a)
def hn : FVec Ideal S100000x20 .f32 := Spec.nodeH (xf a) (hN0 a) (cN0 a) (wN a) (uN a) a.a9 a.a10
def cn : FVec Ideal S100000x20 .f32 := Spec.nodeC (xf a) (hN0 a) (cN0 a) (wN a) (uN a) a.a9 a.a10
-- A node's new hidden state beside the sum of its edges' states.
def xc : FVec Ideal S100000x28 .f32 :=
  concatenate S100000x28 1 [⟨S100000x20, hn a⟩, ⟨S100000x8, enc a⟩] concatenates_S100000x20_S100000x8_S100000x28_d1
-- A negative node index counts from the end.
def wrap (i : IVec S1000000 32) : IVec S1000000 32 :=
  select (cmpi .slt i (broadcastInDim S1000000 ![] bcast_S_S1000000 (constantI S_ 32 0#32)))
    (addi i (broadcastInDim S1000000 ![] bcast_S_S1000000 (constantI S_ 32 100000#32))) i
def rows (i : IVec S1000000 32) : FVec Ideal S1000000x28 .f32 :=
  Host.gather gather_S100000x28_S1000000x1_S1000000x28_1_0_n_n_0_1_128 (xc a)
    (broadcastInDim S1000000x1 ![0] bcast_S1000000_S1000000x1_0 (wrap i))
-- An edge's source row, target row and attributes, side by side.
def ein : FVec Ideal S1000000x58 .f32 :=
  concatenate S1000000x58 1 [⟨S1000000x28, rows a (rowI a)⟩, ⟨S1000000x28, rows a (colI a)⟩, ⟨S1000000x2, a.a2⟩]
    concatenates_S1000000x28_S1000000x28_S1000000x2_S1000000x58_d1
def elat : FVec Ideal S1000000x32 .f32 := Spec.edgeMlp (ein a) (w1e a) a.a16 (w2e a) a.a18
-- The edge messages added up at their source nodes.
def agg : FVec Ideal S100000x32 .f32 :=
  Host.scatterAdd scatter_S100000x32_S1000000x1_S1000000x32_1_0_0_1
    (broadcastInDim S100000x32 ![] bcast_S_S100000x32 (constant (F := Ideal) S_ .f32 0x00000000#32))
    (broadcastInDim S1000000x1 ![0] bcast_S1000000_S1000000x1_0 (rowI a)) (elat a)
def tyCol (k : Nat) (h : S100000x5.Slices ![0, k] S100000x1) : IVec S100000 1 :=
  shapeCast S100000 (extractStridedSlice S100000x1 ![0, k] (tyNe a) h) shapeCasts_S100000x1_S100000
-- Whether a node has any nonzero type indicator; the five are or-ed as 0, 1, 4, 2, 3.
def anyT : IVec S100000 1 :=
  ori (ori (ori (ori (tyCol a 0 slices_S100000x5_S100000x1_0_0) (tyCol a 1 slices_S100000x5_S100000x1_0_1))
    (tyCol a 4 slices_S100000x5_S100000x1_0_4)) (tyCol a 2 slices_S100000x5_S100000x1_0_2)) (tyCol a 3 slices_S100000x5_S100000x1_0_3)
-- That bit as a number, one entry per node.
def maskF : FVec Ideal S100000x1 .f32 := broadcastInDim S100000x1 ![0] bcast_S100000_S100000x1_0 (uitofp (F := Ideal) .f32 (anyT a))
-- The result the kernel's way: each row of the node perceptron scaled by its mask entry.
def outK : FVec Ideal S100000x4 .f32 := Spec.nodeMasked (xc a) (agg a) (maskF a) (w1n a) a.a20 (w2n a) a.a22 (w3n a) a.a24
-- The result the reference's way: rows of typed nodes kept, the others zero.
def outR : FVec Ideal S100000x4 .f32 := Spec.nodeOut (xc a) (agg a) (anyT a) (w1n a) a.a20 (w2n a) a.a22 (w3n a) a.a24
def hn3 : FVec Ideal S1x100000x20 .f32 := broadcastInDim S1x100000x20 ![1, 2] bcast_S100000x20_S1x100000x20_1_2 (hn a)
def cn3 : FVec Ideal S1x100000x20 .f32 := broadcastInDim S1x100000x20 ![1, 2] bcast_S100000x20_S1x100000x20_1_2 (cn a)
def he3 : FVec Ideal S1x1000000x8 .f32 := broadcastInDim S1x1000000x8 ![1, 2] bcast_S1000000x8_S1x1000000x8_1_2 (he a)
def ce3 : FVec Ideal S1x1000000x8 .f32 := broadcastInDim S1x1000000x8 ![1, 2] bcast_S1000000x8_S1x1000000x8_1_2 (ce a)

end Cert.KernelIdeal.Glue

end
-- ==== Proof.KI.Chain.lean ====
import proofs.«421330_j44495861187264_1_alg».proof.Proof.KI.Keep
import proofs.«421330_j44495861187264_1_alg».proof.Proof.KI.Val0
import proofs.«421330_j44495861187264_1_alg».proof.Proof.KI.Val1
import proofs.«421330_j44495861187264_1_alg».proof.Proof.KI.Val2
import proofs.«421330_j44495861187264_1_alg».proof.Proof.KI.Val3
import proofs.«421330_j44495861187264_1_alg».proof.Proof.Glue
import Idealize.ShloMosaic.Lib.StableHlo.Run

noncomputable section

namespace Cert.KernelIdeal.Chain

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

def argsOf (c : Dev nD) : Glue.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16), m ((c.tc : Thread nD τ).loc main_arg17),
   m ((c.tc : Thread nD τ).loc main_arg18), m ((c.tc : Thread nD τ).loc main_arg19), m ((c.tc : Thread nD τ).loc main_arg20),
   m ((c.tc : Thread nD τ).loc main_arg21), m ((c.tc : Thread nD τ).loc main_arg22), m ((c.tc : Thread nD τ).loc main_arg23),
   m ((c.tc : Thread nD τ).loc main_arg24)⟩

variable (c : Dev nD)

-- A host stretch carries every buffer its operations do not write, a region every array that is not one of its outputs.
theorem keep :
    (∀ r ∉ hostOps0_W, Fr.Wk1 m ρ c (no_index (Proc.devRef .tc r)) = m ((c.tc : Thread nD τ).loc r)) ∧
    (∀ r, (∀ w, Pipeline.arrRef spec0 w = r → (cfg0.win w).isOut = false) → Fr.Wk2 m ρ c (no_index (Proc.devRef .tc r)) = Fr.Wk1 m ρ c (Proc.devRef .tc r)) ∧
    (∀ r ∉ hostOps1_W, Fr.Wk3 m ρ c (no_index (Proc.devRef .tc r)) = Fr.Wk2 m ρ c (Proc.devRef .tc r)) ∧
    (∀ r, (∀ w, Pipeline.arrRef spec1 w = r → (cfg1.win w).isOut = false) → Fr.Wk4 m ρ c (no_index (Proc.devRef .tc r)) = Fr.Wk3 m ρ c (Proc.devRef .tc r)) ∧
    (∀ r ∉ hostOps2_W, Fr.Wk5 m ρ c (no_index (Proc.devRef .tc r)) = Fr.Wk4 m ρ c (Proc.devRef .tc r)) ∧
    (∀ r, (∀ w, Pipeline.arrRef spec2 w = r → (cfg2.win w).isOut = false) → Fr.Wk6 m ρ c (no_index (Proc.devRef .tc r)) = Fr.Wk5 m ρ c (Proc.devRef .tc r)) ∧
    (∀ r ∉ hostOps3_W, Fr.Wk7 m ρ c (no_index (Proc.devRef .tc r)) = Fr.Wk6 m ρ c (Proc.devRef .tc r)) ∧
    (∀ r, (∀ w, Pipeline.arrRef spec3 w = r → (cfg3.win w).isOut = false) → Fr.Wk8 m ρ c (no_index (Proc.devRef .tc r)) = Fr.Wk7 m ρ c (Proc.devRef .tc r)) ∧
    (∀ r ∉ hostOps4_W, Fr.Wk9 m ρ c (no_index (Proc.devRef .tc r)) = Fr.Wk8 m ρ c (Proc.devRef .tc r)) :=
  ⟨fun r h => Fr.Wk1_keep m ρ c r h, fun r h => Fr.Wk2_keep m ρ c r h, fun r h => Fr.Wk3_keep m ρ c r h, fun r h => Fr.Wk4_keep m ρ c r h, fun r h => Fr.Wk5_keep m ρ c r h, fun r h => Fr.Wk6_keep m ρ c r h, fun r h => Fr.Wk7_keep m ρ c r h, fun r h => Fr.Wk8_keep m ρ c r h, fun r h => Fr.Wk9_keep m ρ c r h⟩

-- The views of the arguments the first host stretch makes.
theorem views1 :
    Fr.Wk1 m ρ c (no_index (Proc.devRef .tc main_v2)) = Glue.tyNe (argsOf m c) ∧
    Fr.Wk1 m ρ c (no_index (Proc.devRef .tc main_v3)) = Glue.xf (argsOf m c) ∧
    Fr.Wk1 m ρ c (no_index (Proc.devRef .tc main_v5)) = Glue.rowI (argsOf m c) ∧
    Fr.Wk1 m ρ c (no_index (Proc.devRef .tc main_v7)) = Glue.colI (argsOf m c) ∧
    Fr.Wk1 m ρ c (no_index (Proc.devRef .tc main_v8)) = Glue.hN0 (argsOf m c) ∧
    Fr.Wk1 m ρ c (no_index (Proc.devRef .tc main_v9)) = Glue.cN0 (argsOf m c) ∧
    Fr.Wk1 m ρ c (no_index (Proc.devRef .tc main_v10)) = Glue.hE0 (argsOf m c) ∧
    Fr.Wk1 m ρ c (no_index (Proc.devRef .tc main_v11)) = Glue.cE0 (argsOf m c) ∧
    Fr.Wk1 m ρ c (no_index (Proc.devRef .tc main_v12)) = Glue.wN (argsOf m c) ∧
    Fr.Wk1 m ρ c (no_index (Proc.devRef .tc main_v13)) = Glue.uN (argsOf m c) ∧
    Fr.Wk1 m ρ c (no_index (Proc.devRef .tc main_v14)) = Glue.wE (argsOf m c) ∧
    Fr.Wk1 m ρ c (no_index (Proc.devRef .tc main_v15)) = Glue.uE (argsOf m c) ∧
    Fr.Wk1 m ρ c (no_index (Proc.devRef .tc main_v16)) = Glue.w1e (argsOf m c) ∧
    Fr.Wk1 m ρ c (no_index (Proc.devRef .tc main_v17)) = Glue.w2e (argsOf m c) ∧
    Fr.Wk1 m ρ c (no_index (Proc.devRef .tc main_v18)) = Glue.w1n (argsOf m c) ∧
    Fr.Wk1 m ρ c (no_index (Proc.devRef .tc main_v19)) = Glue.w2n (argsOf m c) ∧
    Fr.Wk1 m ρ c (no_index (Proc.devRef .tc main_v20)) = Glue.w3n (argsOf m c) := by
  and_intros <;> (after_results_simp; rfl)

-- The third host stretch ends by joining three buffers side by side; the joining overwrites none of the three, so it sees them as they are at the stretch's end.
theorem Wk5_v41_parts :
    Fr.Wk5 m ρ c (Proc.devRef .tc main_v41)
      = concatenate S1000000x58 1 [⟨S1000000x28, Fr.Wk5 m ρ c (Proc.devRef .tc main_v33)⟩,
          ⟨S1000000x28, Fr.Wk5 m ρ c (Proc.devRef .tc main_v40)⟩, ⟨S1000000x2, Fr.Wk5 m ρ c (Proc.devRef .tc main_arg2)⟩]
          concatenates_S1000000x28_S1000000x28_S1000000x2_S1000000x58_d1 := by
  have e : ∀ b, Fr.Wk5 m ρ c b = (nary ![main_v33, main_v40, main_arg2] main_v41 (fun u =>
      concatenate S1000000x58 1 [⟨S1000000x28, u 0⟩, ⟨S1000000x28, u 1⟩, ⟨S1000000x2, u 2⟩]
        concatenates_S1000000x28_S1000000x28_S1000000x2_S1000000x58_d1)).result (after (hostOps2.take 19) (Fr.Wk4 m ρ c)) b :=
    fun _ => rfl
  have ne : ∀ r, r ≠ main_v41 → Fr.Wk5 m ρ c (Proc.devRef .tc r) = after (hostOps2.take 19) (Fr.Wk4 m ρ c) (Proc.devRef .tc r) :=
    fun r h => (e _).trans (nary_result_ne _ _ _ _ _ _ h)
  rw [ne main_v33 (by decide), ne main_v40 (by decide), ne main_arg2 (by decide)]
  exact (e _).trans ((nary_result _ _ _ _ _ _).trans rfl)

-- What the edge LSTM step leaves: hidden states, then cell states.
theorem at2 :
    Fr.Wk2 m ρ c (no_index (Proc.devRef .tc main_v21_0)) = Glue.he (argsOf m c) ∧
    Fr.Wk2 m ρ c (no_index (Proc.devRef .tc main_v21_1)) = Glue.ce (argsOf m c) :=
  ⟨(Fr.Wk2_arr m ρ c 7).trans <| (Val.final0_7 (Fr.Ak1 m ρ) c).trans <| by simp (disch := decide) only [keep m ρ c, views1 m ρ c]; rfl,
   (Fr.Wk2_arr m ρ c 8).trans <| (Val.final0_8 (Fr.Ak1 m ρ) c).trans <| by simp (disch := decide) only [keep m ρ c, views1 m ρ c]; rfl⟩

-- For each node, the sum of the hidden states of the edges leaving it.
theorem at3 : Fr.Wk3 m ρ c (no_index (Proc.devRef .tc main_v24)) = Glue.enc (argsOf m c) := by
  after_results_simp; simp (disch := decide) only [keep m ρ c, views1 m ρ c, at2 m ρ c]; rfl

-- What the node LSTM step leaves: hidden states, then cell states.
theorem at4 :
    Fr.Wk4 m ρ c (no_index (Proc.devRef .tc main_v25_0)) = Glue.hn (argsOf m c) ∧
    Fr.Wk4 m ρ c (no_index (Proc.devRef .tc main_v25_1)) = Glue.cn (argsOf m c) :=
  ⟨(Fr.Wk4_arr m ρ c 7).trans <| (Val.final1_7 (Fr.Ak3 m ρ) c).trans <| by simp (disch := decide) only [keep m ρ c, views1 m ρ c]; rfl,
   (Fr.Wk4_arr m ρ c 8).trans <| (Val.final1_8 (Fr.Ak3 m ρ) c).trans <| by simp (disch := decide) only [keep m ρ c, views1 m ρ c]; rfl⟩

theorem at4_enc : Fr.Wk4 m ρ c (no_index (Proc.devRef .tc main_v24)) = Glue.enc (argsOf m c) := by
  simp (disch := decide) only [keep m ρ c, at3 m ρ c]

-- A node's feature row: its new hidden state, then that sum.
theorem at5_xc : Fr.Wk5 m ρ c (no_index (Proc.devRef .tc main_v26)) = Glue.xc (argsOf m c) := by
  after_results_simp; rw [(at4 m ρ c).1, at4_enc m ρ c]; rfl

-- The node features' rows gathered at the edges' source and target nodes.
theorem at5_rows :
    Fr.Wk5 m ρ c (no_index (Proc.devRef .tc main_v33)) = Glue.rows (argsOf m c) (Glue.rowI (argsOf m c)) ∧
    Fr.Wk5 m ρ c (no_index (Proc.devRef .tc main_v40)) = Glue.rows (argsOf m c) (Glue.colI (argsOf m c)) := by
  and_intros <;>
    (after_results_simp; rw [(at4 m ρ c).1, at4_enc m ρ c]; simp (disch := decide) only [keep m ρ c, views1 m ρ c]; rfl)

-- An edge's input row: its source node's features, its target node's, its own attributes.
theorem at5_ein : Fr.Wk5 m ρ c (no_index (Proc.devRef .tc main_v41)) = Glue.ein (argsOf m c) := by
  have h : Fr.Wk5 m ρ c (Proc.devRef .tc main_arg2) = m ((c.tc : Thread nD τ).loc main_arg2) := by
    simp (disch := decide) only [keep m ρ c]
  refine (Wk5_v41_parts m ρ c).trans ?_
  rw [(at5_rows m ρ c).1, (at5_rows m ρ c).2, h]; rfl

-- The message the edge perceptron makes of each edge's input row.
theorem at6 : Fr.Wk6 m ρ c (no_index (Proc.devRef .tc main_v42)) = Glue.elat (argsOf m c) :=
  (Fr.Wk6_arr m ρ c 5).trans <| (Val2.final2_5 (Fr.Ak5 m ρ) c).trans <| by simp (disch := decide) only [keep m ρ c, views1 m ρ c, at5_ein m ρ c]; rfl

-- For each node, the sum of the messages of the edges leaving it; and the type mask.
theorem at7 :
    Fr.Wk7 m ρ c (no_index (Proc.devRef .tc main_v45)) = Glue.agg (argsOf m c) ∧
    Fr.Wk7 m ρ c (no_index (Proc.devRef .tc main_v61)) = Glue.maskF (argsOf m c) := by
  and_intros <;> (after_results_simp; simp (disch := decide) only [keep m ρ c, views1 m ρ c, at6 m ρ c]; rfl)

-- The result: the node perceptron's rows scaled by the mask.
theorem at8 : Fr.Wk8 m ρ c (no_index (Proc.devRef .tc main_v62)) = Glue.outK (argsOf m c) :=
  (Fr.Wk8_arr m ρ c 9).trans <| (Val.final3_9 (Fr.Ak7 m ρ) c).trans <| by
    simp (disch := decide) only [keep m ρ c, views1 m ρ c, at5_xc m ρ c, at7 m ρ c]; rfl

theorem out_eq : Fr.Wk9 m ρ c (Proc.devRef .tc main_v62) = Glue.outK (argsOf m c) :=
  (Fr.Wk9_keep m ρ c main_v62).trans (at8 m ρ c)
theorem hn3_eq : Fr.Wk9 m ρ c (Proc.devRef .tc main_v63) = Glue.hn3 (argsOf m c) := by
  after_results_simp; simp (disch := decide) only [keep m ρ c, at4 m ρ c]; rfl
theorem cn3_eq : Fr.Wk9 m ρ c (Proc.devRef .tc main_v64) = Glue.cn3 (argsOf m c) := by
  after_results_simp; simp (disch := decide) only [keep m ρ c, at4 m ρ c]; rfl
theorem he3_eq : Fr.Wk9 m ρ c (Proc.devRef .tc main_v65) = Glue.he3 (argsOf m c) := by
  after_results_simp; simp (disch := decide) only [keep m ρ c, at2 m ρ c]; rfl
theorem ce3_eq : Fr.Wk9 m ρ c (Proc.devRef .tc main_v66) = Glue.ce3 (argsOf m c) := by
  after_results_simp; simp (disch := decide) only [keep m ρ c, at2 m ρ c]; rfl

end Cert.KernelIdeal.Chain

end
-- ==== Proof.Ref.Ops.lean ====
import proofs.«421330_j44495861187264_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev opsP : List (HloOp τ sig (Elt F)) :=
  [ StableHlo.unary main_arg0 main_v0 (extractStridedSlice S100000x5 ![0, 5] · slices_S100000x10_S100000x5_0_5),
    StableHlo.nullary main_cst (constant S_ .f32 0x00000000#32),
    StableHlo.unary main_cst main_v1 (broadcastInDim S100000x5 ![] bcast_S_S100000x5),
    StableHlo.binary main_v0 main_v1 main_v2 (cmpf .une),
    StableHlo.unary main_arg0 main_v3 (extractStridedSlice S100000x5 ![0, 0] · slices_S100000x10_S100000x5_0_0),
    StableHlo.unary main_arg1 main_v4 (extractStridedSlice S1x1000000 ![0, 0] · slices_S2x1000000_S1x1000000_0_0),
    StableHlo.reshape main_v4 main_v5 rfl shapeCasts_S1x1000000_S1000000,
    StableHlo.unary main_arg1 main_v6 (extractStridedSlice S1x1000000 ![1, 0] · slices_S2x1000000_S1x1000000_1_0),
    StableHlo.reshape main_v6 main_v7 rfl shapeCasts_S1x1000000_S1000000,
    StableHlo.reshape main_arg5 main_v8 rfl shapeCasts_S1x1000000x8_S1000000x8,
    StableHlo.reshape main_arg6 main_v9 rfl shapeCasts_S1x1000000x8_S1000000x8 ]

abbrev opsE : List (HloOp τ sig (Elt F)) :=
  [ StableHlo.unary main_arg11 main_v10 (transpose S2x32 [1, 0] · transposes_S32x2_S2x32_1_0),
    StableHlo.binary main_arg2 main_v10 main_v11 (fun l r => Host.dotGeneral dot_S1000000x2_S2x32_S1000000x32_1_0_0_1_n_n none l r),
    StableHlo.unary main_arg12 main_v12 (transpose S8x32 [1, 0] · transposes_S32x8_S8x32_1_0),
    StableHlo.binary main_v8 main_v12 main_v13 (fun l r => Host.dotGeneral dot_S1000000x8_S8x32_S1000000x32_1_0_0_1_n_n none l r),
    StableHlo.binary main_v11 main_v13 main_v14 addf,
    StableHlo.unary main_arg13 main_v15 (broadcastInDim S1x32 ![1] bcast_S32_S1x32_1),
    StableHlo.unary main_v15 main_v16 (broadcastInDim S1000000x32 ![0, 1] bcast_S1x32_S1000000x32_0_1),
    StableHlo.binary main_v14 main_v16 main_v17 addf,
    StableHlo.unary main_arg14 main_v18 (broadcastInDim S1x32 ![1] bcast_S32_S1x32_1),
    StableHlo.unary main_v18 main_v19 (broadcastInDim S1000000x32 ![0, 1] bcast_S1x32_S1000000x32_0_1),
    StableHlo.binary main_v17 main_v19 main_v20 addf,
    StableHlo.unary main_v20 main_v21 (extractStridedSlice S1000000x8 ![0, 0] · slices_S1000000x32_S1000000x8_0_0),
    StableHlo.unary main_v20 main_v22 (extractStridedSlice S1000000x8 ![0, 8] · slices_S1000000x32_S1000000x8_0_8),
    StableHlo.unary main_v20 main_v23 (extractStridedSlice S1000000x8 ![0, 16] · slices_S1000000x32_S1000000x8_0_16),
    StableHlo.unary main_v20 main_v24 (extractStridedSlice S1000000x8 ![0, 24] · slices_S1000000x32_S1000000x8_0_24),
    StableHlo.unary main_v22 main_v25 Host.negf,
    StableHlo.unary main_v25 main_v26 Host.exp,
    StableHlo.nullary main_cst_0 (constant S_ .f32 0x3F800000#32),
    StableHlo.unary main_cst_0 main_v27 (broadcastInDim S1000000x8 ![] bcast_S_S1000000x8),
    StableHlo.binary main_v27 main_v26 main_v28 addf,
    StableHlo.nullary main_cst_1 (constant S_ .f32 0x3F800000#32),
    StableHlo.unary main_cst_1 main_v29 (broadcastInDim S1000000x8 ![] bcast_S_S1000000x8),
    StableHlo.binary main_v29 main_v28 main_v30 Host.divf,
    StableHlo.binary main_v30 main_v9 main_v31 mulf,
    StableHlo.unary main_v21 main_v32 Host.negf,
    StableHlo.unary main_v32 main_v33 Host.exp,
    StableHlo.nullary main_cst_2 (constant S_ .f32 0x3F800000#32),
    StableHlo.unary main_cst_2 main_v34 (broadcastInDim S1000000x8 ![] bcast_S_S1000000x8),
    StableHlo.binary main_v34 main_v33 main_v35 addf,
    StableHlo.nullary main_cst_3 (constant S_ .f32 0x3F800000#32),
    StableHlo.unary main_cst_3 main_v36 (broadcastInDim S1000000x8 ![] bcast_S_S1000000x8),
    StableHlo.binary main_v36 main_v35 main_v37 Host.divf,
    StableHlo.unary main_v23 main_v38 Host.tanh,
    StableHlo.binary main_v37 main_v38 main_v39 mulf,
    StableHlo.binary main_v31 main_v39 main_v40 addf,
    StableHlo.unary main_v24 main_v41 Host.negf,
    StableHlo.unary main_v41 main_v42 Host.exp,
    StableHlo.nullary main_cst_4 (constant S_ .f32 0x3F800000#32),
    StableHlo.unary main_cst_4 main_v43 (broadcastInDim S1000000x8 ![] bcast_S_S1000000x8),
    StableHlo.binary main_v43 main_v42 main_v44 addf,
    StableHlo.nullary main_cst_5 (constant S_ .f32 0x3F800000#32),
    StableHlo.unary main_cst_5 main_v45 (broadcastInDim S1000000x8 ![] bcast_S_S1000000x8),
    StableHlo.binary main_v45 main_v44 main_v46 Host.divf,
    StableHlo.unary main_v40 main_v47 Host.tanh,
    StableHlo.binary main_v46 main_v47 main_v48 mulf ]

abbrev opsS1 : List (HloOp τ sig (Elt F)) :=
  [ StableHlo.nullary main_cst_6 (constant S_ .f32 0x00000000#32),
    StableHlo.unary main_cst_6 main_v49 (broadcastInDim S100000x8 ![] bcast_S_S100000x8),
    StableHlo.unary main_v5 main_v50 (broadcastInDim S1000000x1 ![0] bcast_S1000000_S1000000x1_0),
    StableHlo.ternary main_v49 main_v50 main_v48 main_v51 (fun x i u => Host.scatterAdd scatter_S100000x8_S1000000x1_S1000000x8_1_0_0_1 x i u) ]

abbrev opsN : List (HloOp τ sig (Elt F)) :=
  [ StableHlo.reshape main_arg3 main_v52 rfl shapeCasts_S1x100000x20_S100000x20,
    StableHlo.reshape main_arg4 main_v53 rfl shapeCasts_S1x100000x20_S100000x20,
    StableHlo.unary main_arg7 main_v54 (transpose S5x80 [1, 0] · transposes_S80x5_S5x80_1_0),
    StableHlo.binary main_v3 main_v54 main_v55 (fun l r => Host.dotGeneral dot_S100000x5_S5x80_S100000x80_1_0_0_1_n_n none l r),
    StableHlo.unary main_arg8 main_v56 (transpose S20x80 [1, 0] · transposes_S80x20_S20x80_1_0),
    StableHlo.binary main_v52 main_v56 main_v57 (fun l r => Host.dotGeneral dot_S100000x20_S20x80_S100000x80_1_0_0_1_n_n none l r),
    StableHlo.binary main_v55 main_v57 main_v58 addf,
    StableHlo.unary main_arg9 main_v59 (broadcastInDim S1x80 ![1] bcast_S80_S1x80_1),
    StableHlo.unary main_v59 main_v60 (broadcastInDim S100000x80 ![0, 1] bcast_S1x80_S100000x80_0_1),
    StableHlo.binary main_v58 main_v60 main_v61 addf,
    StableHlo.unary main_arg10 main_v62 (broadcastInDim S1x80 ![1] bcast_S80_S1x80_1),
    StableHlo.unary main_v62 main_v63 (broadcastInDim S100000x80 ![0, 1] bcast_S1x80_S100000x80_0_1),
    StableHlo.binary main_v61 main_v63 main_v64 addf,
    StableHlo.unary main_v64 main_v65 (extractStridedSlice S100000x20 ![0, 0] · slices_S100000x80_S100000x20_0_0),
    StableHlo.unary main_v64 main_v66 (extractStridedSlice S100000x20 ![0, 20] · slices_S100000x80_S100000x20_0_20),
    StableHlo.unary main_v64 main_v67 (extractStridedSlice S100000x20 ![0, 40] · slices_S100000x80_S100000x20_0_40),
    StableHlo.unary main_v64 main_v68 (extractStridedSlice S100000x20 ![0, 60] · slices_S100000x80_S100000x20_0_60),
    StableHlo.unary main_v66 main_v69 Host.negf,
    StableHlo.unary main_v69 main_v70 Host.exp,
    StableHlo.nullary main_cst_7 (constant S_ .f32 0x3F800000#32),
    StableHlo.unary main_cst_7 main_v71 (broadcastInDim S100000x20 ![] bcast_S_S100000x20),
    StableHlo.binary main_v71 main_v70 main_v72 addf,
    StableHlo.nullary main_cst_8 (constant S_ .f32 0x3F800000#32),
    StableHlo.unary main_cst_8 main_v73 (broadcastInDim S100000x20 ![] bcast_S_S100000x20),
    StableHlo.binary main_v73 main_v72 main_v74 Host.divf,
    StableHlo.binary main_v74 main_v53 main_v75 mulf,
    StableHlo.unary main_v65 main_v76 Host.negf,
    StableHlo.unary main_v76 main_v77 Host.exp,
    StableHlo.nullary main_cst_9 (constant S_ .f32 0x3F800000#32),
    StableHlo.unary main_cst_9 main_v78 (broadcastInDim S100000x20 ![] bcast_S_S100000x20),
    StableHlo.binary main_v78 main_v77 main_v79 addf,
    StableHlo.nullary main_cst_10 (constant S_ .f32 0x3F800000#32),
    StableHlo.unary main_cst_10 main_v80 (broadcastInDim S100000x20 ![] bcast_S_S100000x20),
    StableHlo.binary main_v80 main_v79 main_v81 Host.divf,
    StableHlo.unary main_v67 main_v82 Host.tanh,
    StableHlo.binary main_v81 main_v82 main_v83 mulf,
    StableHlo.binary main_v75 main_v83 main_v84 addf,
    StableHlo.unary main_v68 main_v85 Host.negf,
    StableHlo.unary main_v85 main_v86 Host.exp,
    StableHlo.nullary main_cst_11 (constant S_ .f32 0x3F800000#32),
    StableHlo.unary main_cst_11 main_v87 (broadcastInDim S100000x20 ![] bcast_S_S100000x20),
    StableHlo.binary main_v87 main_v86 main_v88 addf,
    StableHlo.nullary main_cst_12 (constant S_ .f32 0x3F800000#32),
    StableHlo.unary main_cst_12 main_v89 (broadcastInDim S100000x20 ![] bcast_S_S100000x20),
    StableHlo.binary main_v89 main_v88 main_v90 Host.divf,
    StableHlo.unary main_v84 main_v91 Host.tanh,
    StableHlo.binary main_v90 main_v91 main_v92 mulf ]

abbrev opsG : List (HloOp τ sig (Elt F)) :=
  [ StableHlo.binary main_v92 main_v51 main_v93 (fun a b => concatenate S100000x28 1 [⟨S100000x20, a⟩, ⟨S100000x8, b⟩] concatenates_S100000x20_S100000x8_S100000x28_d1),
    StableHlo.nullary main_c (constantI S_ 32 0#32),
    StableHlo.unary main_c main_v94 (broadcastInDim S1000000 ![] bcast_S_S1000000),
    StableHlo.binary main_v5 main_v94 main_v95 (cmpi .slt),
    StableHlo.nullary main_c_13 (constantI S_ 32 100000#32),
    StableHlo.unary main_c_13 main_v96 (broadcastInDim S1000000 ![] bcast_S_S1000000),
    StableHlo.binary main_v5 main_v96 main_v97 addi,
    StableHlo.ternary main_v95 main_v97 main_v5 main_v98 select,
    StableHlo.unary main_v98 main_v99 (broadcastInDim S1000000x1 ![0] bcast_S1000000_S1000000x1_0),
    StableHlo.binary main_v93 main_v99 main_v100 (fun x i => Host.gather gather_S100000x28_S1000000x1_S1000000x28_1_0_n_n_0_1_128 x i),
    StableHlo.nullary main_c_14 (constantI S_ 32 0#32),
    StableHlo.unary main_c_14 main_v101 (broadcastInDim S1000000 ![] bcast_S_S1000000),
    StableHlo.binary main_v7 main_v101 main_v102 (cmpi .slt),
    StableHlo.nullary main_c_15 (constantI S_ 32 100000#32),
    StableHlo.unary main_c_15 main_v103 (broadcastInDim S1000000 ![] bcast_S_S1000000),
    StableHlo.binary main_v7 main_v103 main_v104 addi,
    StableHlo.ternary main_v102 main_v104 main_v7 main_v105 select,
    StableHlo.unary main_v105 main_v106 (broadcastInDim S1000000x1 ![0] bcast_S1000000_S1000000x1_0),
    StableHlo.binary main_v93 main_v106 main_v107 (fun x i => Host.gather gather_S100000x28_S1000000x1_S1000000x28_1_0_n_n_0_1_128 x i),
    StableHlo.nary ![main_v100, main_v107, main_arg2] main_v108 (fun u => concatenate S1000000x58 1 [⟨S1000000x28, u 0⟩, ⟨S1000000x28, u 1⟩, ⟨S1000000x2, u 2⟩] concatenates_S1000000x28_S1000000x28_S1000000x2_S1000000x58_d1) ]

abbrev opsM2 : List (HloOp τ sig (Elt F)) :=
  [ StableHlo.unary main_arg15 main_v109 (transpose S58x64 [1, 0] · transposes_S64x58_S58x64_1_0),
    StableHlo.binary main_v108 main_v109 main_v110 (fun l r => Host.dotGeneral dot_S1000000x58_S58x64_S1000000x64_1_0_0_1_n_n none l r),
    StableHlo.unary main_arg16 main_v111 (broadcastInDim S1x64 ![1] bcast_S64_S1x64_1),
    StableHlo.unary main_v111 main_v112 (broadcastInDim S1000000x64 ![0, 1] bcast_S1x64_S1000000x64_0_1),
    StableHlo.binary main_v110 main_v112 main_v113 addf,
    StableHlo.TRef.nullary main_call0.cst (constant S_ .f32 0x00000000#32),
    StableHlo.TRef.unary main_call0.cst main_call0.v0 (broadcastInDim S1000000x64 ![] bcast_S_S1000000x64),
    StableHlo.TRef.binary (.of main_v113 : TRef sig ⟨S1000000x64, .f32⟩) main_call0.v0 main_call0.v1 (cmpf .oge),
    StableHlo.TRef.nullary main_call0.cst_0 (constant S_ .f32 0x3C23D70A#32),
    StableHlo.TRef.unary main_call0.cst_0 main_call0.v2 (broadcastInDim S1000000x64 ![] bcast_S_S1000000x64),
    StableHlo.TRef.binary main_call0.v2 (.of main_v113 : TRef sig ⟨S1000000x64, .f32⟩) main_call0.v3 mulf,
    StableHlo.TRef.ternary main_call0.v1 (.of main_v113 : TRef sig ⟨S1000000x64, .f32⟩) main_call0.v3 main_call0.call0.v0 select,
    StableHlo.unary main_arg17 main_v115 (transpose S64x32 [1, 0] · transposes_S32x64_S64x32_1_0),
    StableHlo.binary main_v114 main_v115 main_v116 (fun l r => Host.dotGeneral dot_S1000000x64_S64x32_S1000000x32_1_0_0_1_n_n none l r),
    StableHlo.unary main_arg18 main_v117 (broadcastInDim S1x32 ![1] bcast_S32_S1x32_1),
    StableHlo.unary main_v117 main_v118 (broadcastInDim S1000000x32 ![0, 1] bcast_S1x32_S1000000x32_0_1),
    StableHlo.binary main_v116 main_v118 main_v119 addf ]

abbrev opsS2 : List (HloOp τ sig (Elt F)) :=
  [ StableHlo.nullary main_cst_16 (constant S_ .f32 0x00000000#32),
    StableHlo.unary main_cst_16 main_v120 (broadcastInDim S100000x32 ![] bcast_S_S100000x32),
    StableHlo.unary main_v5 main_v121 (broadcastInDim S1000000x1 ![0] bcast_S1000000_S1000000x1_0),
    StableHlo.ternary main_v120 main_v121 main_v119 main_v122 (fun x i u => Host.scatterAdd scatter_S100000x32_S1000000x1_S1000000x32_1_0_0_1 x i u) ]

abbrev opsM3 : List (HloOp τ sig (Elt F)) :=
  [ StableHlo.binary main_v93 main_v122 main_v123 (fun a b => concatenate S100000x60 1 [⟨S100000x28, a⟩, ⟨S100000x32, b⟩] concatenates_S100000x28_S100000x32_S100000x60_d1),
    StableHlo.unary main_arg19 main_v124 (transpose S60x64 [1, 0] · transposes_S64x60_S60x64_1_0),
    StableHlo.binary main_v123 main_v124 main_v125 (fun l r => Host.dotGeneral dot_S100000x60_S60x64_S100000x64_1_0_0_1_n_n none l r),
    StableHlo.unary main_arg20 main_v126 (broadcastInDim S1x64 ![1] bcast_S64_S1x64_1),
    StableHlo.unary main_v126 main_v127 (broadcastInDim S100000x64 ![0, 1] bcast_S1x64_S100000x64_0_1),
    StableHlo.binary main_v125 main_v127 main_v128 addf,
    StableHlo.TRef.nullary main_call1.cst (constant S_ .f32 0x00000000#32),
    StableHlo.TRef.unary main_call1.cst main_call1.v0 (broadcastInDim S100000x64 ![] bcast_S_S100000x64),
    StableHlo.TRef.binary (.of main_v128 : TRef sig ⟨S100000x64, .f32⟩) main_call1.v0 main_call1.v1 (cmpf .oge),
    StableHlo.TRef.nullary main_call1.cst_0 (constant S_ .f32 0x3C23D70A#32),
    StableHlo.TRef.unary main_call1.cst_0 main_call1.v2 (broadcastInDim S100000x64 ![] bcast_S_S100000x64),
    StableHlo.TRef.binary main_call1.v2 (.of main_v128 : TRef sig ⟨S100000x64, .f32⟩) main_call1.v3 mulf,
    StableHlo.TRef.ternary main_call1.v1 (.of main_v128 : TRef sig ⟨S100000x64, .f32⟩) main_call1.v3 main_call1.call0.v0 select,
    StableHlo.unary main_arg21 main_v130 (transpose S64x64 [1, 0] · transposes_S64x64_S64x64_1_0),
    StableHlo.binary main_v129 main_v130 main_v131 (fun l r => Host.dotGeneral dot_S100000x64_S64x64_S100000x64_1_0_0_1_n_n none l r),
    StableHlo.unary main_arg22 main_v132 (broadcastInDim S1x64 ![1] bcast_S64_S1x64_1),
    StableHlo.unary main_v132 main_v133 (broadcastInDim S100000x64 ![0, 1] bcast_S1x64_S100000x64_0_1),
    StableHlo.binary main_v131 main_v133 main_v134 addf,
    StableHlo.TRef.nullary main_call2.cst (constant S_ .f32 0x00000000#32),
    StableHlo.TRef.unary main_call2.cst main_call2.v0 (broadcastInDim S100000x64 ![] bcast_S_S100000x64),
    StableHlo.TRef.binary (.of main_v134 : TRef sig ⟨S100000x64, .f32⟩) main_call2.v0 main_call2.v1 (cmpf .oge),
    StableHlo.TRef.nullary main_call2.cst_0 (constant S_ .f32 0x3C23D70A#32),
    StableHlo.TRef.unary main_call2.cst_0 main_call2.v2 (broadcastInDim S100000x64 ![] bcast_S_S100000x64),
    StableHlo.TRef.binary main_call2.v2 (.of main_v134 : TRef sig ⟨S100000x64, .f32⟩) main_call2.v3 mulf,
    StableHlo.TRef.ternary main_call2.v1 (.of main_v134 : TRef sig ⟨S100000x64, .f32⟩) main_call2.v3 main_call2.call0.v0 select,
    StableHlo.unary main_arg23 main_v136 (transpose S64x4 [1, 0] · transposes_S4x64_S64x4_1_0),
    StableHlo.binary main_v135 main_v136 main_v137 (fun l r => Host.dotGeneral dot_S100000x64_S64x4_S100000x4_1_0_0_1_n_n none l r),
    StableHlo.unary main_arg24 main_v138 (broadcastInDim S1x4 ![1] bcast_S4_S1x4_1),
    StableHlo.unary main_v138 main_v139 (broadcastInDim S100000x4 ![0, 1] bcast_S1x4_S100000x4_0_1),
    StableHlo.binary main_v137 main_v139 main_v140 addf ]

abbrev opsK : List (HloOp τ sig (Elt F)) :=
  [ StableHlo.unary main_v2 main_v141 (extractStridedSlice S100000x1 ![0, 0] · slices_S100000x5_S100000x1_0_0),
    StableHlo.reshape main_v141 main_v142 rfl shapeCasts_S100000x1_S100000,
    StableHlo.unary main_v2 main_v143 (extractStridedSlice S100000x1 ![0, 1] · slices_S100000x5_S100000x1_0_1),
    StableHlo.reshape main_v143 main_v144 rfl shapeCasts_S100000x1_S100000,
    StableHlo.binary main_v142 main_v144 main_v145 ori,
    StableHlo.unary main_v2 main_v146 (extractStridedSlice S100000x1 ![0, 4] · slices_S100000x5_S100000x1_0_4),
    StableHlo.reshape main_v146 main_v147 rfl shapeCasts_S100000x1_S100000,
    StableHlo.binary main_v145 main_v147 main_v148 ori,
    StableHlo.unary main_v2 main_v149 (extractStridedSlice S100000x1 ![0, 2] · slices_S100000x5_S100000x1_0_2),
    StableHlo.reshape main_v149 main_v150 rfl shapeCasts_S100000x1_S100000,
    StableHlo.binary main_v148 main_v150 main_v151 ori,
    StableHlo.unary main_v2 main_v152 (extractStridedSlice S100000x1 ![0, 3] · slices_S100000x5_S100000x1_0_3),
    StableHlo.reshape main_v152 main_v153 rfl shapeCasts_S100000x1_S100000,
    StableHlo.binary main_v151 main_v153 main_v154 ori,
    StableHlo.unary main_v154 main_v155 (broadcastInDim S100000x1 ![0] bcast_S100000_S100000x1_0),
    StableHlo.nullary main_cst_17 (constant S_ .f32 0x00000000#32) ]

abbrev opsO : List (HloOp τ sig (Elt F)) :=
  [ StableHlo.TRef.unary (.of main_v155 : TRef sig ⟨S100000x1, .i1⟩) main_call3.v0 (broadcastInDim S100000x4 ![0, 1] bcast_S100000x1_S100000x4_0_1),
    StableHlo.TRef.unary (.of main_cst_17 : TRef sig ⟨S_, .f32⟩) main_call3.v1 (broadcastInDim S100000x4 ![] bcast_S_S100000x4),
    StableHlo.TRef.ternary main_call3.v0 (.of main_v140 : TRef sig ⟨S100000x4, .f32⟩) main_call3.v1 main_call3.v2 select,
    StableHlo.unary main_v92 main_v157 (broadcastInDim S1x100000x20 ![1, 2] bcast_S100000x20_S1x100000x20_1_2),
    StableHlo.unary main_v84 main_v158 (broadcastInDim S1x100000x20 ![1, 2] bcast_S100000x20_S1x100000x20_1_2),
    StableHlo.unary main_v48 main_v159 (broadcastInDim S1x1000000x8 ![1, 2] bcast_S1000000x8_S1x1000000x8_1_2),
    StableHlo.unary main_v40 main_v160 (broadcastInDim S1x1000000x8 ![1, 2] bcast_S1000000x8_S1x1000000x8_1_2) ]

abbrev ops : List (HloOp τ sig (Elt F)) := opsP ++ opsE ++ opsS1 ++ opsN ++ opsG ++ opsM2 ++ opsS2 ++ opsM3 ++ opsK ++ opsO

end Cert.ReferenceIdeal.HandRun

end
-- ==== Proof.Ref.Writes.lean ====
import proofs.«421330_j44495861187264_1_alg».proof.Proof.Ref.Ops
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of `l` writes only references of `W`. -/
def WritesIn (l : List (HloOp τ sig (Elt F))) (W : List (Ref sig .tc)) : Prop :=
  l.Forall fun op => op.writes ⊆ (W.map (Proc.devRef (τ := τ) .tc)).toFinset

theorem wsub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- A reference outside `W` keeps its contents through `l`. -/
theorem WritesIn.keep {l : List (HloOp τ sig (Elt F))} {W : List (Ref sig .tc)} (h : WritesIn l W)
    (V : Valuation τ sig (Elt F)) {r : Ref sig .tc} (hr : r ∉ W) :
    after l V (Proc.devRef .tc r) = V (Proc.devRef .tc r) :=
  after_of_writes_sub l V h hr

theorem WritesIn.append {l₁ l₂ : List (HloOp τ sig (Elt F))} {W₁ W₂ : List (Ref sig .tc)}
    (h₁ : WritesIn l₁ W₁) (h₂ : WritesIn l₂ W₂) : WritesIn (l₁ ++ l₂) (W₁ ++ W₂) := by
  simp only [WritesIn, List.forall_iff_forall_mem, List.mem_append, List.map_append, List.toFinset_append] at *
  rintro op (h | h)
  · exact (h₁ op h).trans Finset.subset_union_left
  · exact (h₂ op h).trans Finset.subset_union_right

abbrev opsP_W : List (Ref sig .tc) := [main_v0, main_cst, main_v1, main_v2, main_v3, main_v4, main_v5, main_v6, main_v7, main_v8, main_v9]
theorem opsP_writes : WritesIn (F := F) opsP opsP_W := by
  repeat' constructor
  all_goals exact wsub rfl (by decide)

abbrev opsE_W : List (Ref sig .tc) := [main_v10, main_v11, main_v12, main_v13, main_v14, main_v15, main_v16, main_v17, main_v18, main_v19, main_v20, main_v21, main_v22, main_v23, main_v24, main_v25, main_v26, main_cst_0, main_v27, main_v28, main_cst_1, main_v29, main_v30, main_v31, main_v32, main_v33, main_cst_2, main_v34, main_v35, main_cst_3, main_v36, main_v37, main_v38, main_v39, main_v40, main_v41, main_v42, main_cst_4, main_v43, main_v44, main_cst_5, main_v45, main_v46, main_v47, main_v48]
theorem opsE_writes : WritesIn (F := F) opsE opsE_W := by
  repeat' constructor
  all_goals exact wsub rfl (by decide)

abbrev opsS1_W : List (Ref sig .tc) := [main_cst_6, main_v49, main_v50, main_v51]
theorem opsS1_writes : WritesIn (F := F) opsS1 opsS1_W := by
  repeat' constructor
  all_goals exact wsub rfl (by decide)

abbrev opsN_W : List (Ref sig .tc) := [main_v52, main_v53, main_v54, main_v55, main_v56, main_v57, main_v58, main_v59, main_v60, main_v61, main_v62, main_v63, main_v64, main_v65, main_v66, main_v67, main_v68, main_v69, main_v70, main_cst_7, main_v71, main_v72, main_cst_8, main_v73, main_v74, main_v75, main_v76, main_v77, main_cst_9, main_v78, main_v79, main_cst_10, main_v80, main_v81, main_v82, main_v83, main_v84, main_v85, main_v86, main_cst_11, main_v87, main_v88, main_cst_12, main_v89, main_v90, main_v91, main_v92]
theorem opsN_writes : WritesIn (F := F) opsN opsN_W := by
  repeat' constructor
  all_goals exact wsub rfl (by decide)

abbrev opsG_W : List (Ref sig .tc) := [main_v93, main_c, main_v94, main_v95, main_c_13, main_v96, main_v97, main_v98, main_v99, main_v100, main_c_14, main_v101, main_v102, main_c_15, main_v103, main_v104, main_v105, main_v106, main_v107, main_v108]
theorem opsG_writes : WritesIn (F := F) opsG opsG_W := by
  repeat' constructor
  all_goals exact wsub rfl (by decide)

abbrev opsM2_W : List (Ref sig .tc) := [main_v109, main_v110, main_v111, main_v112, main_v113, main_call0_cst, main_call0_v0, main_call0_v1, main_call0_cst_0, main_call0_v2, main_call0_v3, main_v114, main_v115, main_v116, main_v117, main_v118, main_v119]
theorem opsM2_writes : WritesIn (F := F) opsM2 opsM2_W := by
  repeat' constructor
  all_goals exact wsub rfl (by decide)

abbrev opsS2_W : List (Ref sig .tc) := [main_cst_16, main_v120, main_v121, main_v122]
theorem opsS2_writes : WritesIn (F := F) opsS2 opsS2_W := by
  repeat' constructor
  all_goals exact wsub rfl (by decide)

abbrev opsM3_W : List (Ref sig .tc) := [main_v123, main_v124, main_v125, main_v126, main_v127, main_v128, main_call1_cst, main_call1_v0, main_call1_v1, main_call1_cst_0, main_call1_v2, main_call1_v3, main_v129, main_v130, main_v131, main_v132, main_v133, main_v134, main_call2_cst, main_call2_v0, main_call2_v1, main_call2_cst_0, main_call2_v2, main_call2_v3, main_v135, main_v136, main_v137, main_v138, main_v139, main_v140]
theorem opsM3_writes : WritesIn (F := F) opsM3 opsM3_W := by
  repeat' constructor
  all_goals exact wsub rfl (by decide)

abbrev opsK_W : List (Ref sig .tc) := [main_v141, main_v142, main_v143, main_v144, main_v145, main_v146, main_v147, main_v148, main_v149, main_v150, main_v151, main_v152, main_v153, main_v154, main_v155, main_cst_17]
theorem opsK_writes : WritesIn (F := F) opsK opsK_W := by
  repeat' constructor
  all_goals exact wsub rfl (by decide)

abbrev opsO_W : List (Ref sig .tc) := [main_call3_v0, main_call3_v1, main_v156, main_v157, main_v158, main_v159, main_v160]
theorem opsO_writes : WritesIn (F := F) opsO opsO_W := by
  repeat' constructor
  all_goals exact wsub rfl (by decide)

abbrev ops_W : List (Ref sig .tc) := opsP_W ++ opsE_W ++ opsS1_W ++ opsN_W ++ opsG_W ++ opsM2_W ++ opsS2_W ++ opsM3_W ++ opsK_W ++ opsO_W
theorem ops_writes : WritesIn (F := F) ops ops_W :=
  ((((((((opsP_writes.append opsE_writes).append opsS1_writes).append opsN_writes).append opsG_writes).append opsM2_writes).append opsS2_writes).append opsM3_writes).append opsK_writes).append opsO_writes

end Cert.ReferenceIdeal.HandRun

end
-- ==== Proof.Ref.Run.lean ====
import proofs.«421330_j44495861187264_1_alg».proof.Proof.Ref.Writes
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's body and the list `ops` unfold to one sequence of steps. -/
theorem main_eq (c : Dev nD) : main (F := F) c = seq ops := by chain_rfl

theorem ops_sub : (ops : List (HloOp τ sig (Elt F))).Forall fun op => op.bufs ⊆ tcRefs τ sig := by
  repeat' constructor
  all_goals try simp only [↓nullary_bufs_sub, ↓unary_bufs_sub, ↓binary_bufs_sub, ↓ternary_bufs_sub, ↓reshape_bufs_sub, ↓nary_bufs_sub]
  exact unary_bufs_sub ..

theorem ops_fresh : (ops : List (HloOp τ sig (Elt F))).Forall fun op => op.fresh = ∅ := by
  repeat' constructor

/-- Every weakly fair execution of the program ends, and each buffer then holds what folding the operations over the launch contents gives. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq (by decide) (by decide) defs main (fun _ => ops) main_eq (fun _ => ops_sub) m ρ
    fun _ => List.forall_iff_forall_mem.mp ops_fresh

/-- What no operation of the line writes ends as it began. -/
theorem ops_keep (V : Valuation τ sig (Elt F)) {r : Ref sig .tc} (h : r ∉ ops_W) :
    after ops V (Proc.devRef .tc r) = V (Proc.devRef .tc r) :=
  ops_writes.keep V h

end Cert.ReferenceIdeal.HandRun

end
-- ==== Proof.Ref.Chain.lean ====
import proofs.«421330_j44495861187264_1_alg».proof.Proof.Ref.Run
import proofs.«421330_j44495861187264_1_alg».proof.Proof.Glue
import Idealize.ShloMosaic.Lib.StableHlo.Run
import Idealize.ShloMosaic.Lib.Pipeline.Value
import Idealize.ShloMosaic.Lib.ValueIdx

noncomputable section

namespace Cert.ReferenceIdeal.Chain

open Cert.ReferenceIdeal Cert.ReferenceIdeal.Gen Idealize.ShloMosaic Idealize.ShloMosaic.TcCoe Idealize.SL.Sem Idealize.ShloMosaic.StableHlo
open Idealize.ShloMosaic.ValueIdx

def argsOf (m : (ℓ : Loc nD τ sig) → Buf (Elt Ideal) ℓ) (c : Dev nD) : KernelIdeal.Glue.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23),
   m ((c.tc : Thread nD τ).loc main_arg24)⟩

variable (m : (ℓ : Loc nD τ sig) → Buf (Elt Ideal) ℓ) (c : Dev nD)

def R0 : Valuation τ sig (Elt Ideal) := launchContents m c
def RP : Valuation τ sig (Elt Ideal) := after HandRun.opsP (R0 m c)
def RE : Valuation τ sig (Elt Ideal) := after HandRun.opsE (RP m c)
def RS1 : Valuation τ sig (Elt Ideal) := after HandRun.opsS1 (RE m c)
def RN : Valuation τ sig (Elt Ideal) := after HandRun.opsN (RS1 m c)
def RG : Valuation τ sig (Elt Ideal) := after HandRun.opsG (RN m c)
def RM2 : Valuation τ sig (Elt Ideal) := after HandRun.opsM2 (RG m c)
def RS2 : Valuation τ sig (Elt Ideal) := after HandRun.opsS2 (RM2 m c)
def RM3 : Valuation τ sig (Elt Ideal) := after HandRun.opsM3 (RS2 m c)
def RK : Valuation τ sig (Elt Ideal) := after HandRun.opsK (RM3 m c)
def RO : Valuation τ sig (Elt Ideal) := after HandRun.opsO (RK m c)

theorem after_ops_eq : after HandRun.ops (launchContents m c) = RO m c := by
  simp only [HandRun.ops, after_append]; rfl

/-- Each stretch carries through every reference it does not write. -/
theorem keep :
    (∀ r ∉ HandRun.opsP_W, RP m c (no_index (Proc.devRef .tc r)) = R0 m c (Proc.devRef .tc r)) ∧
    (∀ r ∉ HandRun.opsE_W, RE m c (no_index (Proc.devRef .tc r)) = RP m c (Proc.devRef .tc r)) ∧
    (∀ r ∉ HandRun.opsS1_W, RS1 m c (no_index (Proc.devRef .tc r)) = RE m c (Proc.devRef .tc r)) ∧
    (∀ r ∉ HandRun.opsN_W, RN m c (no_index (Proc.devRef .tc r)) = RS1 m c (Proc.devRef .tc r)) ∧
    (∀ r ∉ HandRun.opsG_W, RG m c (no_index (Proc.devRef .tc r)) = RN m c (Proc.devRef .tc r)) ∧
    (∀ r ∉ HandRun.opsM2_W, RM2 m c (no_index (Proc.devRef .tc r)) = RG m c (Proc.devRef .tc r)) ∧
    (∀ r ∉ HandRun.opsS2_W, RS2 m c (no_index (Proc.devRef .tc r)) = RM2 m c (Proc.devRef .tc r)) ∧
    (∀ r ∉ HandRun.opsM3_W, RM3 m c (no_index (Proc.devRef .tc r)) = RS2 m c (Proc.devRef .tc r)) ∧
    (∀ r ∉ HandRun.opsK_W, RK m c (no_index (Proc.devRef .tc r)) = RM3 m c (Proc.devRef .tc r)) ∧
    (∀ r ∉ HandRun.opsO_W, RO m c (no_index (Proc.devRef .tc r)) = RK m c (Proc.devRef .tc r)) :=
  ⟨fun _ => HandRun.opsP_writes.keep _, fun _ => HandRun.opsE_writes.keep _, fun _ => HandRun.opsS1_writes.keep _, fun _ => HandRun.opsN_writes.keep _, fun _ => HandRun.opsG_writes.keep _, fun _ => HandRun.opsM2_writes.keep _, fun _ => HandRun.opsS2_writes.keep _, fun _ => HandRun.opsM3_writes.keep _, fun _ => HandRun.opsK_writes.keep _, fun _ => HandRun.opsO_writes.keep _⟩

/-- The views of the arguments the first stretch makes. -/
theorem viewsP :
    RP m c (no_index (Proc.devRef .tc main_v2)) = KernelIdeal.Glue.tyNe (argsOf m c) ∧
    RP m c (no_index (Proc.devRef .tc main_v3)) = KernelIdeal.Glue.xf (argsOf m c) ∧
    RP m c (no_index (Proc.devRef .tc main_v5)) = KernelIdeal.Glue.rowI (argsOf m c) ∧
    RP m c (no_index (Proc.devRef .tc main_v7)) = KernelIdeal.Glue.colI (argsOf m c) ∧
    RP m c (no_index (Proc.devRef .tc main_v8)) = KernelIdeal.Glue.hE0 (argsOf m c) ∧
    RP m c (no_index (Proc.devRef .tc main_v9)) = KernelIdeal.Glue.cE0 (argsOf m c) := by
  unfold RP; and_intros <;> (after_results; rfl)

/-- When a stretch's last operation overwrites none of its operands, its result is that operation applied to the operands as the stretch leaves them. -/
theorem last_nary {n : Nat} (ops l : List (HloOp τ sig (Elt Ideal))) (xs : Fin n → Ref sig .tc) (y : Ref sig .tc)
    (f : ((k : Fin n) → (xs k).ty.Contents (Elt Ideal)) → y.ty.Contents (Elt Ideal)) (hxs hy)
    (V : Valuation τ sig (Elt Ideal)) (hl : ops = l ++ [StableHlo.nary (τ := τ) xs y f hxs hy]) (hne : ∀ k, xs k ≠ y) :
    after ops V (Proc.devRef .tc y) = f (fun k => after ops V (Proc.devRef .tc (xs k))) := by
  subst hl
  rw [after_append]
  simp only [after_cons, after_nil]
  rw [nary_result]
  congr 1; funext k
  exact (nary_result_ne (y := y) xs f hxs hy (after l V) (hne k)).symm

theorem col_apply (v : IVec S100000 1) (idx : (⟨2, ![100000, 4]⟩ : Shape).Idx) :
    broadcastInDim S100000x1 ![0] bcast_S100000_S100000x1_0 v (ix2 (idx 0) 0) = v (ix1 (idx 0)) :=
  broadcastInDim_apply _ _ v (ix2 (idx 0) 0) (ix1 (idx 0)) fun a => by
    match a with
    | ⟨0, _⟩ => exact (if_neg (show ¬ (100000 : Nat) = 1 by decide)).symm

section Chain

variable
  (hE_h : ∀ W : Valuation τ sig (Elt Ideal), after HandRun.opsE W (Proc.devRef .tc main_v48)
    = Spec.edgeH (W (Proc.devRef .tc main_arg2)) (W (Proc.devRef .tc main_v8)) (W (Proc.devRef .tc main_v9))
        (transpose S2x32 [1, 0] (W (Proc.devRef .tc main_arg11)) transposes_S32x2_S2x32_1_0)
        (transpose S8x32 [1, 0] (W (Proc.devRef .tc main_arg12)) transposes_S32x8_S8x32_1_0)
        (W (Proc.devRef .tc main_arg13)) (W (Proc.devRef .tc main_arg14)))
  (hE_c : ∀ W : Valuation τ sig (Elt Ideal), after HandRun.opsE W (Proc.devRef .tc main_v40)
    = Spec.edgeC (W (Proc.devRef .tc main_arg2)) (W (Proc.devRef .tc main_v8)) (W (Proc.devRef .tc main_v9))
        (transpose S2x32 [1, 0] (W (Proc.devRef .tc main_arg11)) transposes_S32x2_S2x32_1_0)
        (transpose S8x32 [1, 0] (W (Proc.devRef .tc main_arg12)) transposes_S32x8_S8x32_1_0)
        (W (Proc.devRef .tc main_arg13)) (W (Proc.devRef .tc main_arg14)))
  (hN_h : ∀ W : Valuation τ sig (Elt Ideal), after HandRun.opsN W (Proc.devRef .tc main_v92)
    = Spec.nodeH (W (Proc.devRef .tc main_v3))
        (shapeCast S100000x20 (W (Proc.devRef .tc main_arg3)) shapeCasts_S1x100000x20_S100000x20)
        (shapeCast S100000x20 (W (Proc.devRef .tc main_arg4)) shapeCasts_S1x100000x20_S100000x20)
        (transpose S5x80 [1, 0] (W (Proc.devRef .tc main_arg7)) transposes_S80x5_S5x80_1_0)
        (transpose S20x80 [1, 0] (W (Proc.devRef .tc main_arg8)) transposes_S80x20_S20x80_1_0)
        (W (Proc.devRef .tc main_arg9)) (W (Proc.devRef .tc main_arg10)))
  (hN_c : ∀ W : Valuation τ sig (Elt Ideal), after HandRun.opsN W (Proc.devRef .tc main_v84)
    = Spec.nodeC (W (Proc.devRef .tc main_v3))
        (shapeCast S100000x20 (W (Proc.devRef .tc main_arg3)) shapeCasts_S1x100000x20_S100000x20)
        (shapeCast S100000x20 (W (Proc.devRef .tc main_arg4)) shapeCasts_S1x100000x20_S100000x20)
        (transpose S5x80 [1, 0] (W (Proc.devRef .tc main_arg7)) transposes_S80x5_S5x80_1_0)
        (transpose S20x80 [1, 0] (W (Proc.devRef .tc main_arg8)) transposes_S80x20_S20x80_1_0)
        (W (Proc.devRef .tc main_arg9)) (W (Proc.devRef .tc main_arg10)))
  (hM2 : ∀ W : Valuation τ sig (Elt Ideal), after HandRun.opsM2 W (Proc.devRef .tc main_v119)
    = Spec.edgeMlp (W (Proc.devRef .tc main_v108))
        (transpose S58x64 [1, 0] (W (Proc.devRef .tc main_arg15)) transposes_S64x58_S58x64_1_0) (W (Proc.devRef .tc main_arg16))
        (transpose S64x32 [1, 0] (W (Proc.devRef .tc main_arg17)) transposes_S32x64_S64x32_1_0) (W (Proc.devRef .tc main_arg18)))
  (hM3 : ∀ W : Valuation τ sig (Elt Ideal), after HandRun.opsM3 W (Proc.devRef .tc main_v140)
    = fun idx => Spec.nodeY (W (Proc.devRef .tc main_v93)) (W (Proc.devRef .tc main_v122))
        (transpose S60x64 [1, 0] (W (Proc.devRef .tc main_arg19)) transposes_S64x60_S60x64_1_0) (W (Proc.devRef .tc main_arg20))
        (transpose S64x64 [1, 0] (W (Proc.devRef .tc main_arg21)) transposes_S64x64_S64x64_1_0) (W (Proc.devRef .tc main_arg22))
        (transpose S64x4 [1, 0] (W (Proc.devRef .tc main_arg23)) transposes_S4x64_S64x4_1_0) (W (Proc.devRef .tc main_arg24)) (idx 0) (idx 1))
  (hO : ∀ W : Valuation τ sig (Elt Ideal),
    (W (Proc.devRef .tc main_cst_17) : FVec Ideal S_ .f32) = constant (F := Ideal) S_ .f32 0x00000000#32 →
    after HandRun.opsO W (Proc.devRef .tc main_v156)
      = (fun idx => Scalar.select ((W (Proc.devRef .tc main_v155) : IVec S100000x1 1) (ValueIdx.ix2 (idx 0) 0))
          ((W (Proc.devRef .tc main_v140) : Spec.A2 100000 4) idx) 0 : Spec.A2 100000 4))

include hE_h in
theorem v48_E : RE m c (no_index (Proc.devRef .tc main_v48)) = KernelIdeal.Glue.he (argsOf m c) := by
  unfold RE; rw [hE_h]; simp (disch := decide) only [keep m c, viewsP m c]; rfl
include hE_c in
theorem v40_E : RE m c (no_index (Proc.devRef .tc main_v40)) = KernelIdeal.Glue.ce (argsOf m c) := by
  unfold RE; rw [hE_c]; simp (disch := decide) only [keep m c, viewsP m c]; rfl
include hE_h in
theorem v51_S1 : RS1 m c (no_index (Proc.devRef .tc main_v51)) = KernelIdeal.Glue.enc (argsOf m c) := by
  unfold RS1; after_results; simp (disch := decide) only [keep m c, viewsP m c, v48_E m c hE_h]; rfl
include hN_h in
theorem v92_N : RN m c (no_index (Proc.devRef .tc main_v92)) = KernelIdeal.Glue.hn (argsOf m c) := by
  unfold RN; rw [hN_h]; simp (disch := decide) only [keep m c, viewsP m c]; rfl
include hN_c in
theorem v84_N : RN m c (no_index (Proc.devRef .tc main_v84)) = KernelIdeal.Glue.cn (argsOf m c) := by
  unfold RN; rw [hN_c]; simp (disch := decide) only [keep m c, viewsP m c]; rfl
include hE_h in
theorem v51_N : RN m c (no_index (Proc.devRef .tc main_v51)) = KernelIdeal.Glue.enc (argsOf m c) := by
  simp (disch := decide) only [keep m c, v51_S1 m c hE_h]
include hE_h hN_h in
theorem v93_G : RG m c (no_index (Proc.devRef .tc main_v93)) = KernelIdeal.Glue.xc (argsOf m c) := by
  unfold RG; after_results; rw [v92_N m c hN_h, v51_N m c hE_h]; rfl
include hE_h hN_h in
/-- The node features' rows gathered at the edges' source and target nodes. -/
theorem rowsG :
    RG m c (no_index (Proc.devRef .tc main_v100)) = KernelIdeal.Glue.rows (argsOf m c) (KernelIdeal.Glue.rowI (argsOf m c)) ∧
    RG m c (no_index (Proc.devRef .tc main_v107)) = KernelIdeal.Glue.rows (argsOf m c) (KernelIdeal.Glue.colI (argsOf m c)) := by
  unfold RG; and_intros <;>
    (after_results; rw [v92_N m c hN_h, v51_N m c hE_h]; simp (disch := decide) only [keep m c, viewsP m c]; rfl)
theorem arg2_G : RG m c (no_index (Proc.devRef .tc main_arg2)) = R0 m c (Proc.devRef .tc main_arg2) := by
  simp (disch := decide) only [keep m c]
include hE_h hN_h in
theorem v108_G : RG m c (no_index (Proc.devRef .tc main_v108)) = KernelIdeal.Glue.ein (argsOf m c) := by
  have h := last_nary (HandRun.opsG (F := Ideal)) (HandRun.opsG (F := Ideal)).dropLast ![main_v100, main_v107, main_arg2] main_v108 _ _ _
    (RN m c) rfl (by decide)
  unfold RG; rw [h]
  show concatenate S1000000x58 1 [⟨S1000000x28, RG m c (Proc.devRef .tc main_v100)⟩, ⟨S1000000x28, RG m c (Proc.devRef .tc main_v107)⟩,
      ⟨S1000000x2, RG m c (Proc.devRef .tc main_arg2)⟩] concatenates_S1000000x28_S1000000x28_S1000000x2_S1000000x58_d1 = _
  rw [(rowsG m c hE_h hN_h).1, (rowsG m c hE_h hN_h).2, arg2_G m c]; rfl
include hE_h hN_h hM2 in
theorem v119_M2 : RM2 m c (no_index (Proc.devRef .tc main_v119)) = KernelIdeal.Glue.elat (argsOf m c) := by
  unfold RM2; rw [hM2]; simp (disch := decide) only [keep m c, v108_G m c hE_h hN_h]; rfl
include hE_h hN_h hM2 in
theorem v122_S2 : RS2 m c (no_index (Proc.devRef .tc main_v122)) = KernelIdeal.Glue.agg (argsOf m c) := by
  unfold RS2; after_results; simp (disch := decide) only [keep m c, viewsP m c, v119_M2 m c hE_h hN_h hM2]; rfl
include hE_h hN_h hM2 hM3 in
theorem v140_M3 : RM3 m c (no_index (Proc.devRef .tc main_v140))
    = (fun idx => Spec.nodeY (KernelIdeal.Glue.xc (argsOf m c)) (KernelIdeal.Glue.agg (argsOf m c))
        (KernelIdeal.Glue.w1n (argsOf m c)) (argsOf m c).a20 (KernelIdeal.Glue.w2n (argsOf m c)) (argsOf m c).a22
        (KernelIdeal.Glue.w3n (argsOf m c)) (argsOf m c).a24 (idx 0) (idx 1) : Spec.A2 100000 4) := by
  unfold RM3; rw [hM3]
  simp (disch := decide) only [keep m c, v93_G m c hE_h hN_h, v122_S2 m c hE_h hN_h hM2]; rfl
/-- Whether a node has any nonzero type indicator, as a column of one entry per node. -/
theorem v155_K : RK m c (no_index (Proc.devRef .tc main_v155))
    = broadcastInDim S100000x1 ![0] bcast_S100000_S100000x1_0 (KernelIdeal.Glue.anyT (argsOf m c)) := by
  unfold RK; after_results; simp (disch := decide) only [keep m c, viewsP m c]; rfl
theorem cst17_K : (RK m c (Proc.devRef .tc main_cst_17) : FVec Ideal S_ .f32) = constant (F := Ideal) S_ .f32 0x00000000#32 := by
  unfold RK; after_results

include hE_h hN_h hM2 hM3 hO in
theorem out_eq : after HandRun.ops (launchContents m c) (Proc.devRef .tc main_v156) = KernelIdeal.Glue.outR (argsOf m c) := by
  rw [after_ops_eq]; unfold RO; rw [hO (RK m c) (cst17_K m c)]
  simp (disch := decide) only [keep m c, v155_K m c, v140_M3 m c hE_h hN_h hM2 hM3]
  funext idx
  show Scalar.select (broadcastInDim S100000x1 ![0] bcast_S100000_S100000x1_0 (KernelIdeal.Glue.anyT (argsOf m c)) (ix2 (idx 0) 0)) _ _ = _
  rw [col_apply]; rfl
include hN_h in
theorem hn3_eq : after HandRun.ops (launchContents m c) (Proc.devRef .tc main_v157) = KernelIdeal.Glue.hn3 (argsOf m c) := by
  rw [after_ops_eq]; unfold RO; after_results; simp (disch := decide) only [keep m c, v92_N m c hN_h]; rfl
include hN_c in
theorem cn3_eq : after HandRun.ops (launchContents m c) (Proc.devRef .tc main_v158) = KernelIdeal.Glue.cn3 (argsOf m c) := by
  rw [after_ops_eq]; unfold RO; after_results; simp (disch := decide) only [keep m c, v84_N m c hN_c]; rfl
include hE_h in
theorem he3_eq : after HandRun.ops (launchContents m c) (Proc.devRef .tc main_v159) = KernelIdeal.Glue.he3 (argsOf m c) := by
  rw [after_ops_eq]; unfold RO; after_results; simp (disch := decide) only [keep m c, v48_E m c hE_h]; rfl
include hE_c in
theorem ce3_eq : after HandRun.ops (launchContents m c) (Proc.devRef .tc main_v160) = KernelIdeal.Glue.ce3 (argsOf m c) := by
  rw [after_ops_eq]; unfold RO; after_results; simp (disch := decide) only [keep m c, v40_E m c hE_c]; rfl

end Chain

end Cert.ReferenceIdeal.Chain

end
-- ==== Proof.Ref.ValLib.lean ====
import proofs.«421330_j44495861187264_1_alg».proof.Proof.Spec
import Idealize.ShloMosaic.Lib.Pipeline.Value
import Idealize.ShloMosaic.Lib.ValueLayout
import Idealize.ShloMosaic.Lib.KernelVsHost
import Idealize.ShloMosaic.Lib.IdealHost
import Idealize.ShloMosaic.Lib.StackMember
import Idealize.ShloMosaic.PureOps.Ideal.Laws

noncomputable section

namespace Cert.ReferenceIdeal.ValLib

open Idealize.ShloMosaic Idealize.ShloMosaic.ValueIdx Cert.Spec

variable {R K C A H G : Nat}

-- Every index of a rank-two array is some `(i, j)`.
theorem ext2 {α : Type} {f g : (⟨2, ![R, C]⟩ : Shape).Idx → α} (h : ∀ i j, f (ix2 i j) = g (ix2 i j)) : f = g :=
  funext fun idx => by rw [eq_ix2 idx]; exact h _ _

-- The shapes fit: a scalar, a vector and a one-row matrix broadcast to these shapes, and `H` columns from `o` lie inside `G`.
theorem bc0 (s : Shape) : (⟨0, ![]⟩ : Shape).BroadcastsInDim s ![] := ⟨fun a => a.elim0, fun a => a.elim0⟩

theorem bcV (C : Nat) : (⟨1, ![C]⟩ : Shape).BroadcastsInDim ⟨2, ![1, C]⟩ ![1] :=
  ⟨fun a b _ => Subsingleton.elim (α := Fin 1) a b, fun a => Or.inr (by fin_cases a; rfl)⟩

theorem bcR (R C : Nat) : (⟨2, ![1, C]⟩ : Shape).BroadcastsInDim ⟨2, ![R, C]⟩ ![0, 1] :=
  ⟨(by decide : Function.Injective (![0, 1] : Fin 2 → Fin 2)), fun a => by fin_cases a; exacts [Or.inl rfl, Or.inr rfl]⟩

theorem slc {o : Nat} (l : o + H ≤ G) : (⟨2, ![R, G]⟩ : Shape).Slices ![0, o] ⟨2, ![R, H]⟩ :=
  ⟨rfl, fun a => by fin_cases a; exacts [(Nat.zero_add R).le, l]⟩

-- A vector made a one-row matrix and repeated down `R` rows.
def rows (b : A1 C) : A2 R C :=
  broadcastInDim ⟨2, ![R, C]⟩ ![0, 1] (bcR R C) (broadcastInDim ⟨2, ![1, C]⟩ ![1] (bcV C) b)

theorem rows_apply (b : A1 C) (i : Fin R) (k : Fin C) : rows b (ix2 i k) = b (ix1 k) := by
  unfold rows
  rw [broadcastInDim_oneRow_apply]
  refine broadcastInDim_apply ![1] (bcV C) b (ix2 (0 : Fin 1) k) (ix1 k) fun a => ?_
  fin_cases a
  show k.val = if C = 1 then 0 else k.val
  by_cases h : C = 1
  · rw [if_pos h]; have := k.isLt; omega
  · rw [if_neg h]

-- An affine layer as the reference computes it: the product with the transposed weights, plus the bias under every row.
def aff (x : A2 R K) (wT : A2 K C) (b : A1 C) : A2 R C :=
  addf (Host.dotGeneral (DotDims.plain R K C) none x wT) (rows b)

theorem aff_apply (x : A2 R K) (wT : A2 K C) (b : A1 C) (X : Fin R → Fin K → EReal) (hx : ∀ i a, x (ix2 i a) = X i a)
    (i : Fin R) (j : Fin C) : aff x wT b (ix2 i j) = affine X wT b i j := by
  unfold aff affine
  rw [addf_apply, StackMember.dotGeneral_plain_apply, rows_apply]
  simp only [hx]

-- The leaky rectifier of an array, the zero and the slope each a scalar broadcast.
def rect {s : Shape} (x : FVec Ideal s .f32) : FVec Ideal s .f32 :=
  select (cmpf .oge x (broadcastInDim s ![] (bc0 s) (constant (F := Ideal) ⟨0, ![]⟩ .f32 0x00000000#32))) x
    (mulf (broadcastInDim s ![] (bc0 s) (constant (F := Ideal) ⟨0, ![]⟩ .f32 0x3C23D70A#32)) x)

theorem layer_apply (x : A2 R K) (wT : A2 K C) (b : A1 C) (X : Fin R → Fin K → EReal) (hx : ∀ i a, x (ix2 i a) = X i a)
    (i : Fin R) (k : Fin C) : rect (aff x wT b) (ix2 i k) = layer X wT b i k :=
  congrArg leaky (aff_apply x wT b X hx i k)

-- The reference writes the logistic function out as a quotient, one over one plus exp of minus x, each one a broadcast scalar.
def sg {s : Shape} (x : FVec Ideal s .f32) : FVec Ideal s .f32 :=
  Host.divf (broadcastInDim s ![] (bc0 s) (constant (F := Ideal) ⟨0, ![]⟩ .f32 0x3F800000#32))
    (addf (broadcastInDim s ![] (bc0 s) (constant (F := Ideal) ⟨0, ![]⟩ .f32 0x3F800000#32)) (Host.exp (Host.negf x)))

theorem sg_apply {s : Shape} (x : FVec Ideal s .f32) (j : s.Idx) : sg x j = sigm (x j) := by
  show Ideal.div (Ideal.ofBits .f32 0x3F800000#32) (Ideal.ofBits .f32 0x3F800000#32 + Ideal.exp (-(x j))) = _
  rw [Ideal.ofBits_one_f32]
  rfl

theorem tanh_apply {s : Shape} (x : FVec Ideal s .f32) (j : s.Idx) : Host.tanh x j = Ideal.tanh (x j) := rfl

-- What the LSTM's four gates are fed, in the reference's order of addition: product, product, bias, bias.
def pre (x : A2 R A) (h : A2 R H) (wT : A2 A G) (uT : A2 H G) (b1 b2 : A1 G) : A2 R G :=
  addf (addf (addf (Host.dotGeneral (DotDims.plain R A G) none x wT) (Host.dotGeneral (DotDims.plain R H G) none h uT)) (rows b1))
    (rows b2)

theorem pre_apply (x : A2 R A) (h : A2 R H) (wT : A2 A G) (uT : A2 H G) (b1 b2 : A1 G) (i : Fin R) (g : Fin G) :
    pre x h wT uT b1 b2 (ix2 i g) = gates x h wT uT b1 b2 i g := by
  unfold pre gates dot
  rw [addf_apply, addf_apply, addf_apply, StackMember.dotGeneral_plain_apply, StackMember.dotGeneral_plain_apply, rows_apply, rows_apply]

-- The gate of `H` columns from column `o`.
def gate {o : Nat} (l : o + H ≤ G) (P : A2 R G) : A2 R H := extractStridedSlice ⟨2, ![R, H]⟩ ![0, o] P (slc l)

theorem gate_apply {o : Nat} (l : o + H ≤ G) (P : A2 R G) (i : Fin R) (j : Fin H) : gate l P (ix2 i j) = P (ix2 i (col o l j)) :=
  slice2_axis1_apply o P (slc l) i j (col o l j) rfl

variable {o₁ o₂ o₃ o₄ : Nat} (l₁ : o₁ + H ≤ G) (l₂ : o₂ + H ≤ G) (l₃ : o₃ + H ≤ G) (l₄ : o₄ + H ≤ G)

-- The cell update as an array: forget gate times old cell plus input gate times candidate, the input, forget and candidate gates starting at columns `o₁`, `o₂`, `o₃`.
def cell (P : A2 R G) (c : A2 R H) : A2 R H :=
  addf (mulf (sg (gate l₂ P)) c) (mulf (sg (gate l₁ P)) (Host.tanh (gate l₃ P)))

-- The hidden update as an array: output gate, starting at column `o₄`, times tanh of the new cell.
def hid (P : A2 R G) (c : A2 R H) : A2 R H := mulf (sg (gate l₄ P)) (Host.tanh (cell l₁ l₂ l₃ P c))

theorem cell_apply (x : A2 R A) (h c : A2 R H) (wT : A2 A G) (uT : A2 H G) (b1 b2 : A1 G) (i : Fin R) (j : Fin H) :
    cell l₁ l₂ l₃ (pre x h wT uT b1 b2) c (ix2 i j) = cellNew (col o₁ l₁) (col o₂ l₂) (col o₃ l₃) x h c wT uT b1 b2 i j := by
  unfold cell cellNew
  rw [addf_apply, mulf_apply, mulf_apply, sg_apply, sg_apply, tanh_apply, gate_apply, gate_apply, gate_apply, pre_apply, pre_apply,
    pre_apply]

theorem hid_apply (x : A2 R A) (h c : A2 R H) (wT : A2 A G) (uT : A2 H G) (b1 b2 : A1 G) (i : Fin R) (j : Fin H) :
    hid l₁ l₂ l₃ l₄ (pre x h wT uT b1 b2) c (ix2 i j)
      = hidNew (col o₁ l₁) (col o₂ l₂) (col o₃ l₃) (col o₄ l₄) x h c wT uT b1 b2 i j := by
  unfold hid hidNew
  rw [mulf_apply, sg_apply, tanh_apply, gate_apply, pre_apply, cell_apply]

end Cert.ReferenceIdeal.ValLib

end
-- ==== Proof.Ref.ValE.lean ====
import proofs.«421330_j44495861187264_1_alg».proof.Proof.Ref.Ops
import proofs.«421330_j44495861187264_1_alg».proof.Proof.Ref.ValLib

noncomputable section

namespace Cert.ReferenceIdeal.ValE

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

theorem refE_c : StableHlo.after (HandRun.opsE (F := Ideal)) W (Proc.devRef .tc main_v40)
    = Spec.edgeC (W (Proc.devRef .tc main_arg2)) (W (Proc.devRef .tc main_v8)) (W (Proc.devRef .tc main_v9))
        (transpose S2x32 [1, 0] (W (Proc.devRef .tc main_arg11)) transposes_S32x2_S2x32_1_0)
        (transpose S8x32 [1, 0] (W (Proc.devRef .tc main_arg12)) transposes_S32x8_S8x32_1_0)
        (W (Proc.devRef .tc main_arg13)) (W (Proc.devRef .tc main_arg14)) := by
  refine Eq.trans ?_ (ValLib.ext2 fun i j => ValLib.cell_apply _ _ _ _ _ _ _ _ _ _ i j)
  dsimp only [HandRun.opsE]
  after_results_simp
  rfl

theorem refE_h : StableHlo.after (HandRun.opsE (F := Ideal)) W (Proc.devRef .tc main_v48)
    = Spec.edgeH (W (Proc.devRef .tc main_arg2)) (W (Proc.devRef .tc main_v8)) (W (Proc.devRef .tc main_v9))
        (transpose S2x32 [1, 0] (W (Proc.devRef .tc main_arg11)) transposes_S32x2_S2x32_1_0)
        (transpose S8x32 [1, 0] (W (Proc.devRef .tc main_arg12)) transposes_S32x8_S8x32_1_0)
        (W (Proc.devRef .tc main_arg13)) (W (Proc.devRef .tc main_arg14)) := by
  refine Eq.trans ?_ (ValLib.ext2 fun i j => ValLib.hid_apply _ _ _ _ _ _ _ _ _ _ _ i j)
  dsimp only [HandRun.opsE]
  after_results_simp
  rfl

end Cert.ReferenceIdeal.ValE

end
-- ==== Proof.Ref.ValN.lean ====
import proofs.«421330_j44495861187264_1_alg».proof.Proof.Ref.Ops
import proofs.«421330_j44495861187264_1_alg».proof.Proof.Ref.ValLib

noncomputable section

namespace Cert.ReferenceIdeal.ValN

open Cert.ReferenceIdeal Cert.ReferenceIdeal.Gen Idealize.ShloMosaic Idealize.ShloMosaic.TcCoe Idealize.SL.Sem
  Idealize.ShloMosaic.StableHlo Idealize.ShloMosaic.ValueIdx

variable (W : Valuation τ sig (Elt Ideal))

abbrev xN : Spec.A2 100000 5 := W (Proc.devRef .tc main_v3)
abbrev hR : Spec.A2 100000 20 :=
  shapeCast S100000x20 (W (Proc.devRef .tc main_arg3)) shapeCasts_S1x100000x20_S100000x20
abbrev cR : Spec.A2 100000 20 :=
  shapeCast S100000x20 (W (Proc.devRef .tc main_arg4)) shapeCasts_S1x100000x20_S100000x20
abbrev wT : Spec.A2 5 80 := transpose S5x80 [1, 0] (W (Proc.devRef .tc main_arg7)) transposes_S80x5_S5x80_1_0
abbrev uT : Spec.A2 20 80 := transpose S20x80 [1, 0] (W (Proc.devRef .tc main_arg8)) transposes_S80x20_S20x80_1_0
abbrev b1N : Spec.A1 80 := W (Proc.devRef .tc main_arg9)
abbrev b2N : Spec.A1 80 := W (Proc.devRef .tc main_arg10)

theorem refN_c : StableHlo.after HandRun.opsN W (Proc.devRef .tc main_v84)
    = Spec.nodeC (xN W) (hR W) (cR W) (wT W) (uT W) (b1N W) (b2N W) := by
  refine Eq.trans ?_ (ValLib.ext2 fun i j => ValLib.cell_apply _ _ _ _ _ _ _ _ _ _ i j)
  dsimp only [HandRun.opsN]
  after_results_simp
  rfl

theorem refN_h : StableHlo.after HandRun.opsN W (Proc.devRef .tc main_v92)
    = Spec.nodeH (xN W) (hR W) (cR W) (wT W) (uT W) (b1N W) (b2N W) := by
  refine Eq.trans ?_ (ValLib.ext2 fun i j => ValLib.hid_apply _ _ _ _ _ _ _ _ _ _ _ i j)
  dsimp only [HandRun.opsN]
  after_results_simp
  rfl

end Cert.ReferenceIdeal.ValN

end
-- ==== Proof.Ref.ValM2.lean ====
import proofs.«421330_j44495861187264_1_alg».proof.Proof.Ref.Ops
import proofs.«421330_j44495861187264_1_alg».proof.Proof.Ref.ValLib

noncomputable section

namespace Cert.ReferenceIdeal.Val

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

namespace M2

abbrev w1T : Spec.A2 58 64 :=
  transpose (s := S64x58) (α := Ideal .f32) S58x64 [1, 0] (W (Proc.devRef .tc main_arg15)) transposes_S64x58_S58x64_1_0

abbrev w2T : Spec.A2 64 32 :=
  transpose (s := S32x64) (α := Ideal .f32) S64x32 [1, 0] (W (Proc.devRef .tc main_arg17)) transposes_S32x64_S64x32_1_0

end M2

theorem refM2 :
    StableHlo.after (HandRun.opsM2 (F := Ideal)) W (Proc.devRef .tc main_v119)
      = Spec.edgeMlp (W (Proc.devRef .tc main_v108) : Spec.A2 1000000 58) (M2.w1T W)
          (W (Proc.devRef .tc main_arg16) : Spec.A1 64) (M2.w2T W) (W (Proc.devRef .tc main_arg18) : Spec.A1 32) := by
  refine Eq.trans ?_ (ValLib.ext2 fun i j => ValLib.aff_apply _ _ _ _ (ValLib.layer_apply _ _ _ _ fun _ _ => rfl) i j)
  dsimp only [HandRun.opsM2]
  after_results
  rfl

end Cert.ReferenceIdeal.Val

end
-- ==== Proof.Ref.ValM3.lean ====
import proofs.«421330_j44495861187264_1_alg».proof.Proof.Ref.Ops
import proofs.«421330_j44495861187264_1_alg».proof.Proof.Ref.ValLib

noncomputable section

namespace Cert.ReferenceIdeal.Val

open Cert.ReferenceIdeal Cert.ReferenceIdeal.Gen Idealize.ShloMosaic Idealize.ShloMosaic.TcCoe Idealize.SL.Sem Idealize.ShloMosaic.StableHlo Idealize.ShloMosaic.ValueIdx

variable (W : Valuation τ sig (Elt Ideal))

namespace M3

-- The join along the columns reads the first array left of column 28 and the second, 28 columns back, from there on.
theorem xagg_apply (a : Spec.A2 100000 28) (b : Spec.A2 100000 32) (i : Fin 100000) (k : Fin 60) :
    concatenate S100000x60 1 [⟨S100000x28, a⟩, ⟨S100000x32, b⟩] concatenates_S100000x28_S100000x32_S100000x60_d1 (ix2 i k)
      = Spec.xagg a b i k := by
  unfold Spec.xagg
  split
  · next h =>
    exact concatenate_pair_apply_left 1 a b _ (ix2 i k) rfl (ix2 i ⟨k.val, h⟩)
      (fun c => match c with | ⟨0, _⟩ => rfl | ⟨1, _⟩ => rfl)
  · next h =>
    exact concatenate_pair_apply_right 1 a b _ (ix2 i k) rfl rfl (ix2 i ⟨k.val - 28, by omega⟩)
      (fun c hc => match c, hc with | ⟨0, _⟩, _ => rfl | ⟨1, _⟩, hc => absurd rfl hc)
      (by show (k.val - 28) + 28 = k.val; omega)

abbrev w1T : Spec.A2 60 64 :=
  transpose S60x64 [1, 0] (W (Proc.devRef .tc main_arg19) : (⟨S64x60, .f32⟩ : BufTy).Contents (Elt Ideal)) transposes_S64x60_S60x64_1_0
abbrev w2T : Spec.A2 64 64 :=
  transpose S64x64 [1, 0] (W (Proc.devRef .tc main_arg21) : (⟨S64x64, .f32⟩ : BufTy).Contents (Elt Ideal)) transposes_S64x64_S64x64_1_0
abbrev w3T : Spec.A2 64 4 :=
  transpose S64x4 [1, 0] (W (Proc.devRef .tc main_arg23) : (⟨S4x64, .f32⟩ : BufTy).Contents (Elt Ideal)) transposes_S4x64_S64x4_1_0

end M3

attribute [local irreducible] concatenate transpose broadcastInDim in
theorem refM3 : StableHlo.after (HandRun.opsM3 (F := Ideal)) W (Proc.devRef .tc main_v140)
    = fun idx => Spec.nodeY (W (Proc.devRef .tc main_v93)) (W (Proc.devRef .tc main_v122)) (M3.w1T W) (W (Proc.devRef .tc main_arg20))
        (M3.w2T W) (W (Proc.devRef .tc main_arg22)) (M3.w3T W) (W (Proc.devRef .tc main_arg24)) (idx 0) (idx 1) := by
  refine Eq.trans ?_ (ValLib.ext2 fun i j => ValLib.aff_apply _ _ _ _
    (ValLib.layer_apply _ _ _ _ (ValLib.layer_apply _ _ _ _ (M3.xagg_apply _ _))) i j)
  dsimp only [HandRun.opsM3]
  after_results_simp
  rfl

-- Rows whose mask entry is set are kept; the others read the scalar, which here holds zero.
theorem refO (hz : (W (Proc.devRef .tc main_cst_17) : FVec Ideal S_ .f32) = constant (F := Ideal) S_ .f32 0x00000000#32) :
    StableHlo.after (HandRun.opsO (F := Ideal)) W (Proc.devRef .tc main_v156)
    = fun idx => Scalar.select ((W (Proc.devRef .tc main_v155) : IVec S100000x1 1) (ix2 (idx 0) 0))
        ((W (Proc.devRef .tc main_v140) : Spec.A2 100000 4) idx) (0 : EReal) := by
  have run : StableHlo.after (HandRun.opsO (F := Ideal)) W (Proc.devRef .tc main_v156)
      = select (broadcastInDim S100000x4 ![0, 1] bcast_S100000x1_S100000x4_0_1 (W (Proc.devRef .tc main_v155) : IVec S100000x1 1))
          (W (Proc.devRef .tc main_v140) : Spec.A2 100000 4)
          (broadcastInDim S100000x4 ![] bcast_S_S100000x4 (W (Proc.devRef .tc main_cst_17) : FVec Ideal S_ .f32)) := by
    dsimp only [HandRun.opsO]
    after_results
    rfl
  rw [run, hz]
  refine ValLib.ext2 fun i j => ?_
  rw [select_apply, broadcastInDim_scalar_apply, constant_apply, Ideal.ofBits_zero_f32,
    broadcastInDim_apply _ bcast_S100000x1_S100000x4_0_1 _ (ix2 i j) (ix2 i (0 : Fin 1)) (fun a => by fin_cases a <;> rfl)]
  rfl

end Cert.ReferenceIdeal.Val

end
-- ==== Proof.GlueLaw.lean ====
import proofs.«421330_j44495861187264_1_alg».proof.Proof.Glue
import Idealize.ShloMosaic.Lib.ValueIdx
import Idealize.ShloMosaic.Lib.Pipeline.Value

noncomputable section

namespace Cert.KernelIdeal.Glue

open Cert.KernelIdeal Cert.KernelIdeal.Facts₀ Cert.KernelIdeal.Facts Idealize.ShloMosaic Idealize.ShloMosaic.ValueIdx

-- A bit is 0 or 1, and in the extended reals multiplying by 1 changes nothing while multiplying by 0 gives 0, even at ±∞.
theorem select_eq_mul_bit (b : BitVec 1) (y : EReal) :
    Scalar.select b y 0 = y * ((b.toNat : ℝ) : EReal) := by
  by_cases h : b = 1#1
  · subst h
    rw [select_one]
    show y = y * (((1 : ℕ) : ℝ) : EReal)
    rw [Nat.cast_one, EReal.coe_one, mul_one]
  · have h0 := eq_zero_of_ne_one h
    subst h0
    rw [select_zero]
    show (0 : EReal) = y * (((0 : ℕ) : ℝ) : EReal)
    rw [Nat.cast_zero, EReal.coe_zero, mul_zero]

-- Entry (i, 0) of the mask column is node i's type bit taken as a number.
theorem maskF_apply (a : Args) (i : Fin 100000) :
    maskF a (ix2 i 0) = (((anyT a (ix1 i)).toNat : ℝ) : EReal) := by
  unfold maskF
  exact (broadcastInDim_apply ![0] bcast_S100000_S100000x1_0 _ (ix2 i (0 : Fin 1)) (ix1 i) fun ax => by fin_cases ax; rfl).trans rfl

-- Zeroing the rows of untyped nodes is the same as scaling every row by its mask entry.
theorem outR_eq_outK (a : Args) : outR a = outK a :=
  funext fun idx => (select_eq_mul_bit _ _).trans (congrArg (HMul.hMul _) (maskF_apply a (idx 0)).symm)

end Cert.KernelIdeal.Glue

end
-- ==== Proof.lean ====
import proofs.«421330_j44495861187264_1_alg».proof.Defs
import proofs.«421330_j44495861187264_1_alg».proof.Proof.Gen.Kernel
import proofs.«421330_j44495861187264_1_alg».proof.Proof.Gen.KernelIdeal
import proofs.«421330_j44495861187264_1_alg».proof.Proof.Gen.ReferenceIdeal
import proofs.«421330_j44495861187264_1_alg».proof.Proof.Gen.Pre_finite_inputs
import proofs.«421330_j44495861187264_1_alg».proof.Proof.K.Keep
import proofs.«421330_j44495861187264_1_alg».proof.Proof.KI.Keep
import proofs.«421330_j44495861187264_1_alg».proof.Proof.KI.Chain
import proofs.«421330_j44495861187264_1_alg».proof.Proof.Ref.Run
import proofs.«421330_j44495861187264_1_alg».proof.Proof.Ref.Chain
import proofs.«421330_j44495861187264_1_alg».proof.Proof.Ref.ValE
import proofs.«421330_j44495861187264_1_alg».proof.Proof.Ref.ValN
import proofs.«421330_j44495861187264_1_alg».proof.Proof.Ref.ValM2
import proofs.«421330_j44495861187264_1_alg».proof.Proof.Ref.ValM3
import proofs.«421330_j44495861187264_1_alg».proof.Proof.GlueLaw
import Idealize.ShloMosaic.Adequacy
import Idealize.ShloMosaic.Init

noncomputable section

namespace Cert.Proof

open Idealize.ShloMosaic Idealize.ShloMosaic.TcCoe Idealize.SL.Sem

-- Each program runs to the end, and no item of it writes an argument.
theorem frame_k : Cert.frame_Kernel := fun m ρ _ =>
  (θ_run Cert.Kernel.defs _ _).mono (fun r h c => by
    and_intros <;> exact (h c _ (by decide)).trans (Cert.Kernel.Fr.Wk9_of_untouched m ρ c _)) (Cert.Kernel.Fr.run m ρ)

theorem frame_ki : Cert.frame_KernelIdeal := fun m ρ _ =>
  (θ_run Cert.KernelIdeal.defs _ _).mono (fun r h c => by
    and_intros <;> exact (h c _ (by decide)).trans (Cert.KernelIdeal.Fr.Wk9_of_untouched m ρ c _)) (Cert.KernelIdeal.Fr.run m ρ)

theorem frame_ri : Cert.frame_ReferenceIdeal := fun m ρ _ =>
  (θ_run Cert.ReferenceIdeal.defs _ _).mono (fun r h c => by
    and_intros <;> exact (h c _).trans (Cert.ReferenceIdeal.HandRun.ops_keep _ (by decide))) (Cert.ReferenceIdeal.HandRun.run_all (F := Ideal) m ρ)

-- The two programs' buffers hold one and the same term of the arguments up to the last step, a product with a 0/1 mask against a selection; for multiplying extended reals 1 is neutral and 0 absorbing.
theorem algebraic : Cert.algebraic_KernelIdeal_ReferenceIdeal := by
  intro m ρ m' ρ' _ hagree
  have ha (c) : Cert.ReferenceIdeal.Chain.argsOf m' c = Cert.KernelIdeal.Chain.argsOf m c := by
    simp only [Cert.ReferenceIdeal.Chain.argsOf, Cert.KernelIdeal.Chain.argsOf, hagree c]
  refine ⟨fun c => Cert.KernelIdeal.Glue.outK (Cert.KernelIdeal.Chain.argsOf m c), fun c => Cert.KernelIdeal.Glue.hn3 (Cert.KernelIdeal.Chain.argsOf m c),
    fun c => Cert.KernelIdeal.Glue.cn3 (Cert.KernelIdeal.Chain.argsOf m c), fun c => Cert.KernelIdeal.Glue.he3 (Cert.KernelIdeal.Chain.argsOf m c),
    fun c => Cert.KernelIdeal.Glue.ce3 (Cert.KernelIdeal.Chain.argsOf m c), ?_, ?_⟩
  · refine (θ_run Cert.KernelIdeal.defs _ _).mono (fun r h c =>
      ⟨(h c _ (by decide)).trans (Cert.KernelIdeal.Chain.out_eq m ρ c),
        (h c _ (by decide)).trans (Cert.KernelIdeal.Chain.hn3_eq m ρ c),
        (h c _ (by decide)).trans (Cert.KernelIdeal.Chain.cn3_eq m ρ c),
        (h c _ (by decide)).trans (Cert.KernelIdeal.Chain.he3_eq m ρ c),
        (h c _ (by decide)).trans (Cert.KernelIdeal.Chain.ce3_eq m ρ c), ?_⟩) (Cert.KernelIdeal.Fr.run (F := Ideal) m ρ)
    and_intros <;> exact (h c _ (by decide)).trans (Cert.KernelIdeal.Fr.Wk9_of_untouched m ρ c _)
  · refine (θ_run Cert.ReferenceIdeal.defs _ _).mono (fun r h c =>
      ⟨(h c _).trans ((Cert.ReferenceIdeal.Chain.out_eq m' c Cert.ReferenceIdeal.ValE.refE_h Cert.ReferenceIdeal.ValN.refN_h Cert.ReferenceIdeal.Val.refM2 Cert.ReferenceIdeal.Val.refM3 (fun W hz => Cert.ReferenceIdeal.Val.refO W hz)).trans (by rw [ha]; exact Cert.KernelIdeal.Glue.outR_eq_outK _)),
        (h c _).trans ((Cert.ReferenceIdeal.Chain.hn3_eq m' c Cert.ReferenceIdeal.ValN.refN_h).trans (by rw [ha])),
        (h c _).trans ((Cert.ReferenceIdeal.Chain.cn3_eq m' c Cert.ReferenceIdeal.ValN.refN_c).trans (by rw [ha])),
        (h c _).trans ((Cert.ReferenceIdeal.Chain.he3_eq m' c Cert.ReferenceIdeal.ValE.refE_h).trans (by rw [ha])),
        (h c _).trans ((Cert.ReferenceIdeal.Chain.ce3_eq m' c Cert.ReferenceIdeal.ValE.refE_c).trans (by rw [ha])), ?_⟩) (Cert.ReferenceIdeal.HandRun.run_all (F := Ideal) m' ρ')
    and_intros <;> exact (h c _).trans (Cert.ReferenceIdeal.HandRun.ops_keep _ (by decide))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
